-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 53
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S50000x128, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v37 : BitVec 1 := Scalar.cmpi .eq arg0 c9_i32
  let v38 : BitVec 32 := Scalar.extui v37
  let c0_i32_23 : BitVec 32 := 0#32
  let v39 : BitVec 1 := Scalar.cmpi .ne v38 c0_i32_23
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v26_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_call0_cst : Ref sig .tc := ⟨.hbm, 74, rfl⟩
abbrev main_call0_v0 : Ref sig .tc := ⟨.hbm, 75, rfl⟩
abbrev main_v56 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KR0Shared.lean ====
import proofs.«110525_j88974542504019_1_alg».proof.Proof.Gen.Kernel.Launch
import proofs.«110525_j88974542504019_1_alg».proof.Proof.Gen.Kernel.Skeleton
import proofs.«110525_j88974542504019_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- Window `w`'s block at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Entry

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

abbrev VO0_5 : View sig .tc .vmem S5000x128 .f32 := (Memref.whole cc0_stg5_0 : Memref sig .tc .vmem S5000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

def restR1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restR1 (F := F) c) ∗ (∃ r, prngReg c r)) := by
  unfold Pipeline.ΦA restR1; rw [scopedRest0_eq]; simp only [scM0_0, scM0_1, owns_whole]; try rfl

end Cert.Kernel.Hand

end
-- ==== Proof.KR0Run.lean ====
import proofs.«110525_j88974542504019_1_alg».proof.Proof.KR0Shared

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Runs
variable (c : Dev nD) (i : grid0.Coords)
  (arg1 : Memref sig .tc .vmem S5000x128 .f32) (harg1 : arg1.IsWhole) (arg2 : Memref sig .tc .vmem S5000x128 .f32) (harg2 : arg2.IsWhole)
  (arg3 : Memref sig .tc .vmem S128x128 .f32) (harg3 : arg3.IsWhole) (arg4 : Memref sig .tc .vmem S128x128 .f32) (harg4 : arg4.IsWhole)
  (arg5 : Memref sig .tc .vmem S1x128 .f32) (harg5 : arg5.IsWhole) (arg6 : Memref sig .tc .vmem S5000x128 .f32) (harg6 : arg6.IsWhole)
  (arg7 : Memref sig .tc .vmem S1x128 .f32) (harg7 : arg7.IsWhole) (arg8 : Memref sig .tc .vmem S1x128 .f32) (harg8 : arg8.IsWhole)
  (arg9 : Memref sig .tc .vmem S1x128 .f32) (harg9 : arg9.IsWhole) (arg10 : Memref sig .tc .vmem S1x128 .f32) (harg10 : arg10.IsWhole)

/-! The statistics body run symbolically on whole memrefs, once per control case. Each run yields, per written buffer,
the list of pieces its stores leave (the last store first), and the proof that the body reaches any continuation that
holds the inputs as they were and each written buffer with its pieces laid over what it held. -/

set_option maxHeartbeats 1000000 in
noncomputable def kernelRun0_A (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__linear_stats_kernel_eq_skeleton]; unfold cc0__linear_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 1000000 in
noncomputable def kernelRun0_B (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__linear_stats_kernel_eq_skeleton]; unfold cc0__linear_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 1000000 in
noncomputable def kernelRun0_C (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Runs

end Cert.Kernel.Hand

end
-- ==== Proof.KR0.lean ====
import proofs.«110525_j88974542504019_1_alg».proof.Proof.KR0Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The ten memrefs the statistics body is called with, each whole. -/
structure Args0 where
  a1 : Memref sig .tc .vmem S5000x128 .f32
  h1 : a1.IsWhole
  a2 : Memref sig .tc .vmem S5000x128 .f32
  h2 : a2.IsWhole
  a3 : Memref sig .tc .vmem S128x128 .f32
  h3 : a3.IsWhole
  a4 : Memref sig .tc .vmem S128x128 .f32
  h4 : a4.IsWhole
  a5 : Memref sig .tc .vmem S1x128 .f32
  h5 : a5.IsWhole
  a6 : Memref sig .tc .vmem S5000x128 .f32
  h6 : a6.IsWhole
  a7 : Memref sig .tc .vmem S1x128 .f32
  h7 : a7.IsWhole
  a8 : Memref sig .tc .vmem S1x128 .f32
  h8 : a8.IsWhole
  a9 : Memref sig .tc .vmem S1x128 .f32
  h9 : a9.IsWhole
  a10 : Memref sig .tc .vmem S1x128 .f32
  h10 : a10.IsWhole

/-- The memrefs the body is called with at grid point `t`. -/
abbrev argsAt (t : Fin cfg0.N) : Args0 :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
    scM0_0, Memref.isWhole_whole _, scM0_1, Memref.isWhole_whole _⟩

/-- Contents of windows 5, 6, 7's buffers and of the two accumulators from the pieces stored into each: pieces that
    cover a buffer read back the same over any prior contents and through any view. -/
def readBack (L5 : List (View.Piece (Elt F) S5000x128 .f32)) (L6 L7 LS0 LS1 : List (View.Piece (Elt F) S1x128 .f32)) :
    Vec F S5000x128 .f32 × Vec F S1x128 .f32 × Vec F S1x128 .f32 × Vec F S1x128 .f32 × Vec F S1x128 .f32 :=
  (VO0_5.read (Elt F) (VO0_5.writes (Elt F) VO0_5.junk L5), VO0_6.read (Elt F) (VO0_6.writes (Elt F) VO0_6.junk L6),
    VO0_7.read (Elt F) (VO0_7.writes (Elt F) VO0_7.junk L7), VS0_0.read (Elt F) (VS0_0.writes (Elt F) VS0_0.junk LS0),
    VS0_1.read (Elt F) (VS0_1.writes (Elt F) VS0_1.junk LS1))

section Cases
variable (c : Dev nD) (i : grid0.Coords) (a : Args0) (x0 x1 : Vec F S5000x128 .f32) (x2 x3 : Vec F S128x128 .f32) (x4 : Vec F S1x128 .f32)

section A
variable (hc0 : cond0_0 i) (hc1 : ¬cond0_1 i)

abbrev runA := kernelRun0_A c i a.a1 a.h1 a.a2 a.h2 a.a3 a.h3 a.a4 a.h4 a.a5 a.h5 a.a6 a.h6 a.a7 a.h7 a.a8 a.h8 a.a9 a.h9 a.a10 a.h10 hc0 hc1 x0 x1 x2 x3 x4

def outs0_A := readBack (runA c i a x0 x1 x2 x3 x4 hc0 hc1).1 (runA c i a x0 x1 x2 x3 x4 hc0 hc1).2.1 (runA c i a x0 x1 x2 x3 x4 hc0 hc1).2.2.1 (runA c i a x0 x1 x2 x3 x4 hc0 hc1).2.2.2.1 (runA c i a x0 x1 x2 x3 x4 hc0 hc1).2.2.2.2.1

theorem cover0_A_5 (y : S5000x128.Idx) : ∃ pc ∈ (runA c i a x0 x1 x2 x3 x4 hc0 hc1).1, y ∈ pc.1.set :=
  View.cover_of_tiledL _ S5000x128.size (by sl_kernel_rfl) y
theorem scover0_A_0 (y : S1x128.Idx) : ∃ pc ∈ (runA c i a x0 x1 x2 x3 x4 hc0 hc1).2.2.2.1, y ∈ pc.1.set :=
  View.cover_of_tiledL _ S1x128.size (by sl_kernel_rfl) y
theorem scover0_A_1 (y : S1x128.Idx) : ∃ pc ∈ (runA c i a x0 x1 x2 x3 x4 hc0 hc1).2.2.2.2.1, y ∈ pc.1.set :=
  View.cover_of_tiledL _ S1x128.size (by sl_kernel_rfl) y

end A

section B
variable (hc0 : ¬cond0_0 i) (hc1 : ¬cond0_1 i) (xs0 xs1 : Vec F S1x128 .f32)

abbrev runB := kernelRun0_B c i a.a1 a.h1 a.a2 a.h2 a.a3 a.h3 a.a4 a.h4 a.a5 a.h5 a.a6 a.h6 a.a7 a.h7 a.a8 a.h8 a.a9 a.h9 a.a10 a.h10 hc0 hc1 x0 x1 x2 x3 x4 xs0 xs1

def outs0_B := readBack (runB c i a x0 x1 x2 x3 x4 hc0 hc1 xs0 xs1).1 (runB c i a x0 x1 x2 x3 x4 hc0 hc1 xs0 xs1).2.1 (runB c i a x0 x1 x2 x3 x4 hc0 hc1 xs0 xs1).2.2.1 (runB c i a x0 x1 x2 x3 x4 hc0 hc1 xs0 xs1).2.2.2.1 (runB c i a x0 x1 x2 x3 x4 hc0 hc1 xs0 xs1).2.2.2.2.1

theorem cover0_B_5 (y : S5000x128.Idx) : ∃ pc ∈ (runB c i a x0 x1 x2 x3 x4 hc0 hc1 xs0 xs1).1, y ∈ pc.1.set :=
  View.cover_of_tiledL _ S5000x128.size (by sl_kernel_rfl) y
theorem scover0_B_0 (y : S1x128.Idx) : ∃ pc ∈ (runB c i a x0 x1 x2 x3 x4 hc0 hc1 xs0 xs1).2.2.2.1, y ∈ pc.1.set :=
  View.cover_of_tiledL _ S1x128.size (by sl_kernel_rfl) y
theorem scover0_B_1 (y : S1x128.Idx) : ∃ pc ∈ (runB c i a x0 x1 x2 x3 x4 hc0 hc1 xs0 xs1).2.2.2.2.1, y ∈ pc.1.set :=
  View.cover_of_tiledL _ S1x128.size (by sl_kernel_rfl) y

end B

section C
variable (hc0 : ¬cond0_0 i) (hc1 : cond0_1 i) (xs0 xs1 : Vec F S1x128 .f32)

abbrev runC := kernelRun0_C c i a.a1 a.h1 a.a2 a.h2 a.a3 a.h3 a.a4 a.h4 a.a5 a.h5 a.a6 a.h6 a.a7 a.h7 a.a8 a.h8 a.a9 a.h9 a.a10 a.h10 hc0 hc1 x0 x1 x2 x3 x4 xs0 xs1

def outs0_C := readBack (runC c i a x0 x1 x2 x3 x4 hc0 hc1 xs0 xs1).1 (runC c i a x0 x1 x2 x3 x4 hc0 hc1 xs0 xs1).2.1 (runC c i a x0 x1 x2 x3 x4 hc0 hc1 xs0 xs1).2.2.1 (runC c i a x0 x1 x2 x3 x4 hc0 hc1 xs0 xs1).2.2.2.1 (runC c i a x0 x1 x2 x3 x4 hc0 hc1 xs0 xs1).2.2.2.2.1

theorem cover0_C_5 (y : S5000x128.Idx) : ∃ pc ∈ (runC c i a x0 x1 x2 x3 x4 hc0 hc1 xs0 xs1).1, y ∈ pc.1.set :=
  View.cover_of_tiledL _ S5000x128.size (by sl_kernel_rfl) y
theorem cover0_C_6 (y : S1x128.Idx) : ∃ pc ∈ (runC c i a x0 x1 x2 x3 x4 hc0 hc1 xs0 xs1).2.1, y ∈ pc.1.set :=
  View.cover_of_tiledL _ S1x128.size (by sl_kernel_rfl) y
theorem cover0_C_7 (y : S1x128.Idx) : ∃ pc ∈ (runC c i a x0 x1 x2 x3 x4 hc0 hc1 xs0 xs1).2.2.1, y ∈ pc.1.set :=
  View.cover_of_tiledL _ S1x128.size (by sl_kernel_rfl) y
theorem scover0_C_0 (y : S1x128.Idx) : ∃ pc ∈ (runC c i a x0 x1 x2 x3 x4 hc0 hc1 xs0 xs1).2.2.2.1, y ∈ pc.1.set :=
  View.cover_of_tiledL _ S1x128.size (by sl_kernel_rfl) y
theorem scover0_C_1 (y : S1x128.Idx) : ∃ pc ∈ (runC c i a x0 x1 x2 x3 x4 hc0 hc1 xs0 xs1).2.2.2.2.1, y ∈ pc.1.set :=
  View.cover_of_tiledL _ S1x128.size (by sl_kernel_rfl) y

end C

end Cases

variable (V : (c : Dev nD) → (b : Ref sig .tc) → Buf (Elt F) ((c : Thread nD τ).loc b))

section Point
variable (c : Dev nD) (t : Fin cfg0.N)

def ptA (h0 : t.val % 10 = 0) (h1 : ¬t.val % 10 = 9) :=
  outs0_A c (grid0.coords t) (argsAt t) (iblk0 V c 0 t) (iblk0 V c 1 t) (iblk0 V c 2 t) (iblk0 V c 3 t) (iblk0 V c 4 t) ((hcond0_0 t).mpr h0) (fun h => h1 ((hcond0_1 t).mp h))

def ptB (h0 : ¬t.val % 10 = 0) (h1 : ¬t.val % 10 = 9) (xs0 xs1 : Vec F S1x128 .f32) :=
  outs0_B c (grid0.coords t) (argsAt t) (iblk0 V c 0 t) (iblk0 V c 1 t) (iblk0 V c 2 t) (iblk0 V c 3 t) (iblk0 V c 4 t) (fun h => h0 ((hcond0_0 t).mp h)) (fun h => h1 ((hcond0_1 t).mp h)) xs0 xs1

def ptC (h0 : ¬t.val % 10 = 0) (h1 : t.val % 10 = 9) (xs0 xs1 : Vec F S1x128 .f32) :=
  outs0_C c (grid0.coords t) (argsAt t) (iblk0 V c 0 t) (iblk0 V c 1 t) (iblk0 V c 2 t) (iblk0 V c 3 t) (iblk0 V c 4 t) (fun h => h0 ((hcond0_0 t).mp h)) ((hcond0_1 t).mpr h1) xs0 xs1

end Point

/-- What windows 5, 6, 7's buffers and the two accumulators hold after the body at position `n`: the case the
    closed forms select there, over what position `n - 1` left in the accumulators. -/
def outsAt0 (c : Dev nD) : (n : ℕ) → n < cfg0.N → Vec F S5000x128 .f32 × Vec F S1x128 .f32 × Vec F S1x128 .f32 × Vec F S1x128 .f32 × Vec F S1x128 .f32
  | 0, hn => ptA V c ⟨0, hn⟩ (Nat.zero_mod _) (show ¬0 % 10 = 9 by decide)
  | n + 1, hn =>
    if h0 : (n + 1) % 10 = 0 then
      if h1 : (n + 1) % 10 = 9 then False.elim (by omega) else ptA V c ⟨n + 1, hn⟩ h0 h1
    else if h1 : (n + 1) % 10 = 9 then
      ptC V c ⟨n + 1, hn⟩ h0 h1 (outsAt0 c n (Nat.lt_of_succ_lt hn)).2.2.2.1 (outsAt0 c n (Nat.lt_of_succ_lt hn)).2.2.2.2
    else ptB V c ⟨n + 1, hn⟩ h0 h1 (outsAt0 c n (Nat.lt_of_succ_lt hn)).2.2.2.1 (outsAt0 c n (Nat.lt_of_succ_lt hn)).2.2.2.2

theorem outsAt0_A (c : Dev nD) (t : Fin cfg0.N) (h0 : t.val % 10 = 0) (h1 : ¬t.val % 10 = 9) :
    outsAt0 V c t.val t.isLt = ptA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 V c t.val t.isLt = ptB V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 10 = 0) (h1 : t.val % 10 = 9) :
    outsAt0 V c t.val t.isLt = ptC V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h1).trans rfl)

/-- The region's invariant before position `n`: at first what the launch hands over; afterwards the two accumulators
    at what the point before left in them, the rest as the launch has it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restR1 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restR1 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restR1 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- Pieces that cover a buffer determine its contents: laid over anything, they read back as laid over junk. -/
theorem owns_of_cover {c : Thread nD τ} {cs : Space} {s : Shape} {e : EltTy} {κ' : Kind} {sp' : Space}
    (v' : View sig κ' sp' s e) {M : Memref sig c.2.kind cs s e} {g : Buf (Elt F) (M.view.loc c)}
    {L : List (View.Piece (Elt F) s e)} (h : ∀ y, ∃ pc ∈ L, y ∈ pc.1.set) :
    (M.view.loc c ↦[M.view.set]{fullShare} M.view.writes (Elt F) g L : sProp 𝕄)
      ⊢ owns c M fullShare (v'.read (Elt F) (v'.writes (Elt F) v'.junk L)) := by
  iintro H; unfold owns; iexists M.view.writes (Elt F) g L; isplitr
  · ipureintro; exact View.read_writes_of_cover _ _ _ _ _ h
  · iexact H

set_option maxHeartbeats 4800000 in
/-- At any point the closed forms say which case applies; the invariant lends that case's run the two accumulators and
    takes them back at what its pieces, which cover them, determine. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val % 10 = 0
  · by_cases h1 : t.val % 10 = 9
    · exfalso; omega
    · have c0 : cond0_0 (grid0.coords t) := (hcond0_0 t).mpr h0
      have c1 : ¬cond0_1 (grid0.coords t) := fun h => h1 ((hcond0_1 t).mp h)
      rw [Dat.leavesExact_idle (dat0 V c) 6 t (idleAt0_6 t c1) (noFlush0_6 t c1),
        Dat.leavesExact_idle (dat0 V c) 7 t (idleAt0_7 t c1) (noFlush0_7 t c1)]
      rw [outsAt0_A V c t h0 h1]
      unfold ptA outs0_A readBack; (try dsimp only)
      have hz : t.val = 0 := by omega
      rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) (argsAt t) (iblk0 V c 0 t) (iblk0 V c 1 t) (iblk0 V c 2 t) (iblk0 V c 3 t) (iblk0 V c 4 t) c0 c1).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · iapply (owns_of_cover VS0_0 (scover0_A_0 c _ _ _ _ _ _ _ _ _)); iexact HS0
          isplitl [HS1]
          · iapply (owns_of_cover VS0_1 (scover0_A_1 c _ _ _ _ _ _ _ _ _)); iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iapply (owns_of_cover VO0_5 (cover0_A_5 c _ _ _ _ _ _ _ _ _)); iexact H5
      isplitl [H6]; · iexists _; iexact H6
      iexists _; iexact H7
  · have c0 : ¬cond0_0 (grid0.coords t) := fun h => h0 ((hcond0_0 t).mp h)
    have hz : t.val ≠ 0 := by omega
    by_cases h1 : t.val % 10 = 9
    · have c1 : cond0_1 (grid0.coords t) := (hcond0_1 t).mpr h1
      rw [show (dat0 V c).leavesExact 6 t = owns (c : Thread nD τ) (ms0_6 t) fullShare ((dat0 V c).after 6 t) from by
        unfold Dat.leavesExact; rw [liveAt0_6 t c1], after0_6]
      rw [show (dat0 V c).leavesExact 7 t = owns (c : Thread nD τ) (ms0_7 t) fullShare ((dat0 V c).after 7 t) from by
        unfold Dat.leavesExact; rw [liveAt0_7 t c1], after0_7]
      rw [outsAt0_C V c t h0 h1]
      unfold ptC outs0_C readBack; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c (grid0.coords t) (argsAt t) (iblk0 V c 0 t) (iblk0 V c 1 t) (iblk0 V c 2 t) (iblk0 V c 3 t) (iblk0 V c 4 t) c0 c1 _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0]
          · iapply (owns_of_cover VS0_0 (scover0_C_0 c _ _ _ _ _ _ _ _ _ _ _)); iexact HS0
          isplitl [HS1]
          · iapply (owns_of_cover VS0_1 (scover0_C_1 c _ _ _ _ _ _ _ _ _ _ _)); iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iapply (owns_of_cover VO0_5 (cover0_C_5 c _ _ _ _ _ _ _ _ _ _ _)); iexact H5
      isplitl [H6]
      · iapply (owns_of_cover VO0_6 (cover0_C_6 c _ _ _ _ _ _ _ _ _ _ _)); iexact H6
      iapply (owns_of_cover VO0_7 (cover0_C_7 c _ _ _ _ _ _ _ _ _ _ _)); iexact H7
    · have c1 : ¬cond0_1 (grid0.coords t) := fun h => h1 ((hcond0_1 t).mp h)
      rw [Dat.leavesExact_idle (dat0 V c) 6 t (idleAt0_6 t c1) (noFlush0_6 t c1),
        Dat.leavesExact_idle (dat0 V c) 7 t (idleAt0_7 t c1) (noFlush0_7 t c1)]
      rw [outsAt0_B V c t h0 h1]
      unfold ptB outs0_B readBack; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) (argsAt t) (iblk0 V c 0 t) (iblk0 V c 1 t) (iblk0 V c 2 t) (iblk0 V c 3 t) (iblk0 V c 4 t) c0 c1 _ _).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · iapply (owns_of_cover VS0_0 (scover0_B_0 c _ _ _ _ _ _ _ _ _ _ _)); iexact HS0
          isplitl [HS1]
          · iapply (owns_of_cover VS0_1 (scover0_B_1 c _ _ _ _ _ _ _ _ _ _ _)); iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iapply (owns_of_cover VO0_5 (cover0_B_5 c _ _ _ _ _ _ _ _ _ _ _)); iexact H5
      isplitl [H6]; · iexists _; iexact H6
      iexists _; iexact H7

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's form back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 10 := N_0; omega)

end Cert.Kernel.Hand

end
-- ==== Proof.KR1.lean ====
import proofs.«110525_j88974542504019_1_alg».proof.Proof.Gen.Kernel.Launch
import proofs.«110525_j88974542504019_1_alg».proof.Proof.Gen.Kernel.Skeleton
import proofs.«110525_j88974542504019_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

def out1_5 (x0 : Vec F S5000x128 .f32) (x1 x2 x3 x4 : Vec F S1x128 .f32) : Vec F S5000x128 .f32 :=
  View.canon [⟨r1_0, k1_pay1 (View.ld x0 r1_0) (View.ld x2 r1_1) (View.ld x1 r1_1) (View.ld x3 r1_1) (View.ld x4 r1_1)⟩]

theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in
theorem sound_kernel1 (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
import proofs.«110525_j88974542504019_1_alg».proof.Proof.KR0
import proofs.«110525_j88974542504019_1_alg».proof.Proof.KR1
import proofs.«110525_j88974542504019_1_alg».proof.Proof.Gen.Kernel.Launch
import proofs.«110525_j88974542504019_1_alg».proof.Proof.Gen.Kernel.Skeleton
import proofs.«110525_j88974542504019_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at the five boundaries of @main: launch, then after each host stretch and each region in turn. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev wr0 : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25]
theorem hostOps0_writes : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
abbrev wr1 : List (Ref sig .tc) := [main_cst_4, main_v27, main_v28, main_cst_5, main_v29, main_v30, main_v31, main_v32, main_v33, main_v34]
theorem hostOps1_writes : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W1_of (c : Dev nD) (r : Ref sig .tc) (h : r ∉ wr0) : W1 m ρ c (Proc.devRef .tc r) = W0 m ρ c (Proc.devRef .tc r) :=
  StableHlo.after_of_writes_sub hostOps0 _ hostOps0_writes h
theorem W3_of (c : Dev nD) (r : Ref sig .tc) (h : r ∉ wr1) : W3 m ρ c (Proc.devRef .tc r) = W2 m ρ c (Proc.devRef .tc r) :=
  StableHlo.after_of_writes_sub hostOps1 _ hostOps1_writes h

/-- Argument 0 is the array of an input window of region 0. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) :=
          (W2_arr m ρ c 1).trans (((dat0 (V1 m ρ) c).arrAt_in 1 rfl _).trans (A_eq0 (V1 m ρ) c 1))
    _ = W0 m ρ c (Proc.devRef .tc main_arg0) := W1_of m ρ c main_arg0 (by decide)
    _ = m ((c : Thread nD τ).loc main_arg0) := rfl

/-- A buffer that is no window array of either region and no result of either host stretch is passed on by every
    boundary, so at the last one it is as launched. -/
theorem W4_pass (c : Dev nD) (r : Ref sig .tc) (h4 : ∀ w, Pipeline.arrRef spec1 w ≠ r) (h3 : r ∉ wr1)
    (h2 : ∀ w, Pipeline.arrRef spec0 w ≠ r) (h1 : r ∉ wr0) : W4 m ρ c (Proc.devRef .tc r) = m ((c : Thread nD τ).loc r) :=
  (W4_of_ne m ρ c r h4).trans ((W3_of m ρ c r h3).trans ((W2_of_ne m ρ c r h2).trans (W1_of m ρ c r h1)))

theorem W4_main_arg1 (c : Dev nD) : W4 m ρ c (Proc.devRef .tc main_arg1) = m ((c : Thread nD τ).loc main_arg1) :=
  W4_pass m ρ c main_arg1 (by decide) (by decide) (by decide) (by decide)
theorem W4_main_arg2 (c : Dev nD) : W4 m ρ c (Proc.devRef .tc main_arg2) = m ((c : Thread nD τ).loc main_arg2) :=
  W4_pass m ρ c main_arg2 (by decide) (by decide) (by decide) (by decide)
theorem W4_main_arg3 (c : Dev nD) : W4 m ρ c (Proc.devRef .tc main_arg3) = m ((c : Thread nD τ).loc main_arg3) :=
  W4_pass m ρ c main_arg3 (by decide) (by decide) (by decide) (by decide)
theorem W4_main_arg4 (c : Dev nD) : W4 m ρ c (Proc.devRef .tc main_arg4) = m ((c : Thread nD τ).loc main_arg4) :=
  W4_pass m ρ c main_arg4 (by decide) (by decide) (by decide) (by decide)
theorem W4_main_arg5 (c : Dev nD) : W4 m ρ c (Proc.devRef .tc main_arg5) = m ((c : Thread nD τ).loc main_arg5) :=
  W4_pass m ρ c main_arg5 (by decide) (by decide) (by decide) (by decide)
theorem W4_main_arg6 (c : Dev nD) : W4 m ρ c (Proc.devRef .tc main_arg6) = m ((c : Thread nD τ).loc main_arg6) :=
  W4_pass m ρ c main_arg6 (by decide) (by decide) (by decide) (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (run_all m ρ).mono fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩

end Cert.Kernel.Hand

end
-- ==== Proof.KiR0Shared.lean ====
import proofs.«110525_j88974542504019_1_alg».proof.Proof.Gen.KernelIdeal.Launch
import proofs.«110525_j88974542504019_1_alg».proof.Proof.Gen.KernelIdeal.Skeleton
import proofs.«110525_j88974542504019_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- Window `w`'s block at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Entry

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

abbrev VO0_5 : View sig .tc .vmem S5000x128 .f32 := (Memref.whole cc0_stg5_0 : Memref sig .tc .vmem S5000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

def restR1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restR1 (F := F) c) ∗ (∃ r, prngReg c r)) := by
  unfold Pipeline.ΦA restR1; rw [scopedRest0_eq]; simp only [scM0_0, scM0_1, owns_whole]; try rfl

end Cert.KernelIdeal.Hand

end
-- ==== Proof.KiR0Run.lean ====
import proofs.«110525_j88974542504019_1_alg».proof.Proof.KiR0Shared

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Runs
variable (c : Dev nD) (i : grid0.Coords)
  (arg1 : Memref sig .tc .vmem S5000x128 .f32) (harg1 : arg1.IsWhole) (arg2 : Memref sig .tc .vmem S5000x128 .f32) (harg2 : arg2.IsWhole)
  (arg3 : Memref sig .tc .vmem S128x128 .f32) (harg3 : arg3.IsWhole) (arg4 : Memref sig .tc .vmem S128x128 .f32) (harg4 : arg4.IsWhole)
  (arg5 : Memref sig .tc .vmem S1x128 .f32) (harg5 : arg5.IsWhole) (arg6 : Memref sig .tc .vmem S5000x128 .f32) (harg6 : arg6.IsWhole)
  (arg7 : Memref sig .tc .vmem S1x128 .f32) (harg7 : arg7.IsWhole) (arg8 : Memref sig .tc .vmem S1x128 .f32) (harg8 : arg8.IsWhole)
  (arg9 : Memref sig .tc .vmem S1x128 .f32) (harg9 : arg9.IsWhole) (arg10 : Memref sig .tc .vmem S1x128 .f32) (harg10 : arg10.IsWhole)

/-! The statistics body run symbolically on whole memrefs, once per control case. Each run yields, per written buffer,
the list of pieces its stores leave (the last store first), and the proof that the body reaches any continuation that
holds the inputs as they were and each written buffer with its pieces laid over what it held. -/

set_option maxHeartbeats 1000000 in
noncomputable def kernelRun0_A (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__linear_stats_kernel_eq_skeleton]; unfold cc0__linear_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 1000000 in
noncomputable def kernelRun0_B (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (xi6 : Vec F S1x128 .f32) (xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc0__linear_stats_kernel_eq_skeleton]; unfold cc0__linear_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact H10

set_option maxHeartbeats 1000000 in
noncomputable def kernelRun0_C (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 : Vec F S1x128 .f32) (xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__linear_stats_kernel_eq_skeleton]; unfold cc0__linear_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Runs

end Cert.KernelIdeal.Hand

end
-- ==== Proof.KiR0.lean ====
import proofs.«110525_j88974542504019_1_alg».proof.Proof.KiR0Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The ten memrefs the statistics body is called with, each whole. -/
structure Args0 where
  a1 : Memref sig .tc .vmem S5000x128 .f32
  h1 : a1.IsWhole
  a2 : Memref sig .tc .vmem S5000x128 .f32
  h2 : a2.IsWhole
  a3 : Memref sig .tc .vmem S128x128 .f32
  h3 : a3.IsWhole
  a4 : Memref sig .tc .vmem S128x128 .f32
  h4 : a4.IsWhole
  a5 : Memref sig .tc .vmem S1x128 .f32
  h5 : a5.IsWhole
  a6 : Memref sig .tc .vmem S5000x128 .f32
  h6 : a6.IsWhole
  a7 : Memref sig .tc .vmem S1x128 .f32
  h7 : a7.IsWhole
  a8 : Memref sig .tc .vmem S1x128 .f32
  h8 : a8.IsWhole
  a9 : Memref sig .tc .vmem S1x128 .f32
  h9 : a9.IsWhole
  a10 : Memref sig .tc .vmem S1x128 .f32
  h10 : a10.IsWhole

/-- The memrefs the body is called with at grid point `t`. -/
abbrev argsAt (t : Fin cfg0.N) : Args0 :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
    scM0_0, Memref.isWhole_whole _, scM0_1, Memref.isWhole_whole _⟩

/-- Contents of windows 5, 6, 7's buffers and of the two accumulators from the pieces stored into each: pieces that
    cover a buffer read back the same over any prior contents and through any view. -/
def readBack (L5 : List (View.Piece (Elt F) S5000x128 .f32)) (L6 L7 LS0 LS1 : List (View.Piece (Elt F) S1x128 .f32)) :
    Vec F S5000x128 .f32 × Vec F S1x128 .f32 × Vec F S1x128 .f32 × Vec F S1x128 .f32 × Vec F S1x128 .f32 :=
  (VO0_5.read (Elt F) (VO0_5.writes (Elt F) VO0_5.junk L5), VO0_6.read (Elt F) (VO0_6.writes (Elt F) VO0_6.junk L6),
    VO0_7.read (Elt F) (VO0_7.writes (Elt F) VO0_7.junk L7), VS0_0.read (Elt F) (VS0_0.writes (Elt F) VS0_0.junk LS0),
    VS0_1.read (Elt F) (VS0_1.writes (Elt F) VS0_1.junk LS1))

section Cases
variable (c : Dev nD) (i : grid0.Coords) (a : Args0) (x0 x1 : Vec F S5000x128 .f32) (x2 x3 : Vec F S128x128 .f32) (x4 : Vec F S1x128 .f32)

section A
variable (hc0 : cond0_0 i) (hc1 : ¬cond0_1 i)

abbrev runA := kernelRun0_A c i a.a1 a.h1 a.a2 a.h2 a.a3 a.h3 a.a4 a.h4 a.a5 a.h5 a.a6 a.h6 a.a7 a.h7 a.a8 a.h8 a.a9 a.h9 a.a10 a.h10 hc0 hc1 x0 x1 x2 x3 x4

def outs0_A := readBack (runA c i a x0 x1 x2 x3 x4 hc0 hc1).1 (runA c i a x0 x1 x2 x3 x4 hc0 hc1).2.1 (runA c i a x0 x1 x2 x3 x4 hc0 hc1).2.2.1 (runA c i a x0 x1 x2 x3 x4 hc0 hc1).2.2.2.1 (runA c i a x0 x1 x2 x3 x4 hc0 hc1).2.2.2.2.1

theorem cover0_A_5 (y : S5000x128.Idx) : ∃ pc ∈ (runA c i a x0 x1 x2 x3 x4 hc0 hc1).1, y ∈ pc.1.set :=
  View.cover_of_tiledL _ S5000x128.size (by sl_kernel_rfl) y
theorem scover0_A_0 (y : S1x128.Idx) : ∃ pc ∈ (runA c i a x0 x1 x2 x3 x4 hc0 hc1).2.2.2.1, y ∈ pc.1.set :=
  View.cover_of_tiledL _ S1x128.size (by sl_kernel_rfl) y
theorem scover0_A_1 (y : S1x128.Idx) : ∃ pc ∈ (runA c i a x0 x1 x2 x3 x4 hc0 hc1).2.2.2.2.1, y ∈ pc.1.set :=
  View.cover_of_tiledL _ S1x128.size (by sl_kernel_rfl) y

end A

section B
variable (hc0 : ¬cond0_0 i) (hc1 : ¬cond0_1 i) (xs0 xs1 : Vec F S1x128 .f32)

abbrev runB := kernelRun0_B c i a.a1 a.h1 a.a2 a.h2 a.a3 a.h3 a.a4 a.h4 a.a5 a.h5 a.a6 a.h6 a.a7 a.h7 a.a8 a.h8 a.a9 a.h9 a.a10 a.h10 hc0 hc1 x0 x1 x2 x3 x4 xs0 xs1

def outs0_B := readBack (runB c i a x0 x1 x2 x3 x4 hc0 hc1 xs0 xs1).1 (runB c i a x0 x1 x2 x3 x4 hc0 hc1 xs0 xs1).2.1 (runB c i a x0 x1 x2 x3 x4 hc0 hc1 xs0 xs1).2.2.1 (runB c i a x0 x1 x2 x3 x4 hc0 hc1 xs0 xs1).2.2.2.1 (runB c i a x0 x1 x2 x3 x4 hc0 hc1 xs0 xs1).2.2.2.2.1

theorem cover0_B_5 (y : S5000x128.Idx) : ∃ pc ∈ (runB c i a x0 x1 x2 x3 x4 hc0 hc1 xs0 xs1).1, y ∈ pc.1.set :=
  View.cover_of_tiledL _ S5000x128.size (by sl_kernel_rfl) y
theorem scover0_B_0 (y : S1x128.Idx) : ∃ pc ∈ (runB c i a x0 x1 x2 x3 x4 hc0 hc1 xs0 xs1).2.2.2.1, y ∈ pc.1.set :=
  View.cover_of_tiledL _ S1x128.size (by sl_kernel_rfl) y
theorem scover0_B_1 (y : S1x128.Idx) : ∃ pc ∈ (runB c i a x0 x1 x2 x3 x4 hc0 hc1 xs0 xs1).2.2.2.2.1, y ∈ pc.1.set :=
  View.cover_of_tiledL _ S1x128.size (by sl_kernel_rfl) y

end B

section C
variable (hc0 : ¬cond0_0 i) (hc1 : cond0_1 i) (xs0 xs1 : Vec F S1x128 .f32)

abbrev runC := kernelRun0_C c i a.a1 a.h1 a.a2 a.h2 a.a3 a.h3 a.a4 a.h4 a.a5 a.h5 a.a6 a.h6 a.a7 a.h7 a.a8 a.h8 a.a9 a.h9 a.a10 a.h10 hc0 hc1 x0 x1 x2 x3 x4 xs0 xs1

def outs0_C := readBack (runC c i a x0 x1 x2 x3 x4 hc0 hc1 xs0 xs1).1 (runC c i a x0 x1 x2 x3 x4 hc0 hc1 xs0 xs1).2.1 (runC c i a x0 x1 x2 x3 x4 hc0 hc1 xs0 xs1).2.2.1 (runC c i a x0 x1 x2 x3 x4 hc0 hc1 xs0 xs1).2.2.2.1 (runC c i a x0 x1 x2 x3 x4 hc0 hc1 xs0 xs1).2.2.2.2.1

theorem cover0_C_5 (y : S5000x128.Idx) : ∃ pc ∈ (runC c i a x0 x1 x2 x3 x4 hc0 hc1 xs0 xs1).1, y ∈ pc.1.set :=
  View.cover_of_tiledL _ S5000x128.size (by sl_kernel_rfl) y
theorem cover0_C_6 (y : S1x128.Idx) : ∃ pc ∈ (runC c i a x0 x1 x2 x3 x4 hc0 hc1 xs0 xs1).2.1, y ∈ pc.1.set :=
  View.cover_of_tiledL _ S1x128.size (by sl_kernel_rfl) y
theorem cover0_C_7 (y : S1x128.Idx) : ∃ pc ∈ (runC c i a x0 x1 x2 x3 x4 hc0 hc1 xs0 xs1).2.2.1, y ∈ pc.1.set :=
  View.cover_of_tiledL _ S1x128.size (by sl_kernel_rfl) y
theorem scover0_C_0 (y : S1x128.Idx) : ∃ pc ∈ (runC c i a x0 x1 x2 x3 x4 hc0 hc1 xs0 xs1).2.2.2.1, y ∈ pc.1.set :=
  View.cover_of_tiledL _ S1x128.size (by sl_kernel_rfl) y
theorem scover0_C_1 (y : S1x128.Idx) : ∃ pc ∈ (runC c i a x0 x1 x2 x3 x4 hc0 hc1 xs0 xs1).2.2.2.2.1, y ∈ pc.1.set :=
  View.cover_of_tiledL _ S1x128.size (by sl_kernel_rfl) y

end C

end Cases

variable (V : (c : Dev nD) → (b : Ref sig .tc) → Buf (Elt F) ((c : Thread nD τ).loc b))

section Point
variable (c : Dev nD) (t : Fin cfg0.N)

def ptA (h0 : t.val % 10 = 0) (h1 : ¬t.val % 10 = 9) :=
  outs0_A c (grid0.coords t) (argsAt t) (iblk0 V c 0 t) (iblk0 V c 1 t) (iblk0 V c 2 t) (iblk0 V c 3 t) (iblk0 V c 4 t) ((hcond0_0 t).mpr h0) (fun h => h1 ((hcond0_1 t).mp h))

def ptB (h0 : ¬t.val % 10 = 0) (h1 : ¬t.val % 10 = 9) (xs0 xs1 : Vec F S1x128 .f32) :=
  outs0_B c (grid0.coords t) (argsAt t) (iblk0 V c 0 t) (iblk0 V c 1 t) (iblk0 V c 2 t) (iblk0 V c 3 t) (iblk0 V c 4 t) (fun h => h0 ((hcond0_0 t).mp h)) (fun h => h1 ((hcond0_1 t).mp h)) xs0 xs1

def ptC (h0 : ¬t.val % 10 = 0) (h1 : t.val % 10 = 9) (xs0 xs1 : Vec F S1x128 .f32) :=
  outs0_C c (grid0.coords t) (argsAt t) (iblk0 V c 0 t) (iblk0 V c 1 t) (iblk0 V c 2 t) (iblk0 V c 3 t) (iblk0 V c 4 t) (fun h => h0 ((hcond0_0 t).mp h)) ((hcond0_1 t).mpr h1) xs0 xs1

end Point

/-- What windows 5, 6, 7's buffers and the two accumulators hold after the body at position `n`: the case the
    closed forms select there, over what position `n - 1` left in the accumulators. -/
def outsAt0 (c : Dev nD) : (n : ℕ) → n < cfg0.N → Vec F S5000x128 .f32 × Vec F S1x128 .f32 × Vec F S1x128 .f32 × Vec F S1x128 .f32 × Vec F S1x128 .f32
  | 0, hn => ptA V c ⟨0, hn⟩ (Nat.zero_mod _) (show ¬0 % 10 = 9 by decide)
  | n + 1, hn =>
    if h0 : (n + 1) % 10 = 0 then
      if h1 : (n + 1) % 10 = 9 then False.elim (by omega) else ptA V c ⟨n + 1, hn⟩ h0 h1
    else if h1 : (n + 1) % 10 = 9 then
      ptC V c ⟨n + 1, hn⟩ h0 h1 (outsAt0 c n (Nat.lt_of_succ_lt hn)).2.2.2.1 (outsAt0 c n (Nat.lt_of_succ_lt hn)).2.2.2.2
    else ptB V c ⟨n + 1, hn⟩ h0 h1 (outsAt0 c n (Nat.lt_of_succ_lt hn)).2.2.2.1 (outsAt0 c n (Nat.lt_of_succ_lt hn)).2.2.2.2

theorem outsAt0_A (c : Dev nD) (t : Fin cfg0.N) (h0 : t.val % 10 = 0) (h1 : ¬t.val % 10 = 9) :
    outsAt0 V c t.val t.isLt = ptA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 V c t.val t.isLt = ptB V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 10 = 0) (h1 : t.val % 10 = 9) :
    outsAt0 V c t.val t.isLt = ptC V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h1).trans rfl)

/-- The region's invariant before position `n`: at first what the launch hands over; afterwards the two accumulators
    at what the point before left in them, the rest as the launch has it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restR1 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restR1 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restR1 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- Pieces that cover a buffer determine its contents: laid over anything, they read back as laid over junk. -/
theorem owns_of_cover {c : Thread nD τ} {cs : Space} {s : Shape} {e : EltTy} {κ' : Kind} {sp' : Space}
    (v' : View sig κ' sp' s e) {M : Memref sig c.2.kind cs s e} {g : Buf (Elt F) (M.view.loc c)}
    {L : List (View.Piece (Elt F) s e)} (h : ∀ y, ∃ pc ∈ L, y ∈ pc.1.set) :
    (M.view.loc c ↦[M.view.set]{fullShare} M.view.writes (Elt F) g L : sProp 𝕄)
      ⊢ owns c M fullShare (v'.read (Elt F) (v'.writes (Elt F) v'.junk L)) := by
  iintro H; unfold owns; iexists M.view.writes (Elt F) g L; isplitr
  · ipureintro; exact View.read_writes_of_cover _ _ _ _ _ h
  · iexact H

set_option maxHeartbeats 4800000 in
/-- At any point the closed forms say which case applies; the invariant lends that case's run the two accumulators and
    takes them back at what its pieces, which cover them, determine. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h0 : t.val % 10 = 0
  · by_cases h1 : t.val % 10 = 9
    · exfalso; omega
    · have c0 : cond0_0 (grid0.coords t) := (hcond0_0 t).mpr h0
      have c1 : ¬cond0_1 (grid0.coords t) := fun h => h1 ((hcond0_1 t).mp h)
      rw [Dat.leavesExact_idle (dat0 V c) 6 t (idleAt0_6 t c1) (noFlush0_6 t c1),
        Dat.leavesExact_idle (dat0 V c) 7 t (idleAt0_7 t c1) (noFlush0_7 t c1)]
      rw [outsAt0_A V c t h0 h1]
      unfold ptA outs0_A readBack; (try dsimp only)
      have hz : t.val = 0 := by omega
      rw [PhiS_castSucc V c t, PhiS_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) (argsAt t) (iblk0 V c 0 t) (iblk0 V c 1 t) (iblk0 V c 2 t) (iblk0 V c 3 t) (iblk0 V c 4 t) c0 c1).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · iapply (owns_of_cover VS0_0 (scover0_A_0 c _ _ _ _ _ _ _ _ _)); iexact HS0
          isplitl [HS1]
          · iapply (owns_of_cover VS0_1 (scover0_A_1 c _ _ _ _ _ _ _ _ _)); iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iapply (owns_of_cover VO0_5 (cover0_A_5 c _ _ _ _ _ _ _ _ _)); iexact H5
      isplitl [H6]; · iexists _; iexact H6
      iexists _; iexact H7
  · have c0 : ¬cond0_0 (grid0.coords t) := fun h => h0 ((hcond0_0 t).mp h)
    have hz : t.val ≠ 0 := by omega
    by_cases h1 : t.val % 10 = 9
    · have c1 : cond0_1 (grid0.coords t) := (hcond0_1 t).mpr h1
      rw [show (dat0 V c).leavesExact 6 t = owns (c : Thread nD τ) (ms0_6 t) fullShare ((dat0 V c).after 6 t) from by
        unfold Dat.leavesExact; rw [liveAt0_6 t c1], after0_6]
      rw [show (dat0 V c).leavesExact 7 t = owns (c : Thread nD τ) (ms0_7 t) fullShare ((dat0 V c).after 7 t) from by
        unfold Dat.leavesExact; rw [liveAt0_7 t c1], after0_7]
      rw [outsAt0_C V c t h0 h1]
      unfold ptC outs0_C readBack; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c (grid0.coords t) (argsAt t) (iblk0 V c 0 t) (iblk0 V c 1 t) (iblk0 V c 2 t) (iblk0 V c 3 t) (iblk0 V c 4 t) c0 c1 _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0]
          · iapply (owns_of_cover VS0_0 (scover0_C_0 c _ _ _ _ _ _ _ _ _ _ _)); iexact HS0
          isplitl [HS1]
          · iapply (owns_of_cover VS0_1 (scover0_C_1 c _ _ _ _ _ _ _ _ _ _ _)); iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iapply (owns_of_cover VO0_5 (cover0_C_5 c _ _ _ _ _ _ _ _ _ _ _)); iexact H5
      isplitl [H6]
      · iapply (owns_of_cover VO0_6 (cover0_C_6 c _ _ _ _ _ _ _ _ _ _ _)); iexact H6
      iapply (owns_of_cover VO0_7 (cover0_C_7 c _ _ _ _ _ _ _ _ _ _ _)); iexact H7
    · have c1 : ¬cond0_1 (grid0.coords t) := fun h => h1 ((hcond0_1 t).mp h)
      rw [Dat.leavesExact_idle (dat0 V c) 6 t (idleAt0_6 t c1) (noFlush0_6 t c1),
        Dat.leavesExact_idle (dat0 V c) 7 t (idleAt0_7 t c1) (noFlush0_7 t c1)]
      rw [outsAt0_B V c t h0 h1]
      unfold ptB outs0_B readBack; (try dsimp only)
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) (argsAt t) (iblk0 V c 0 t) (iblk0 V c 1 t) (iblk0 V c 2 t) (iblk0 V c 3 t) (iblk0 V c 4 t) c0 c1 _ _).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 HR Hg]
      · isplitl [HS0 HS1 HR]
        · isplitl [HS0]
          · iapply (owns_of_cover VS0_0 (scover0_B_0 c _ _ _ _ _ _ _ _ _ _ _)); iexact HS0
          isplitl [HS1]
          · iapply (owns_of_cover VS0_1 (scover0_B_1 c _ _ _ _ _ _ _ _ _ _ _)); iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iapply (owns_of_cover VO0_5 (cover0_B_5 c _ _ _ _ _ _ _ _ _ _ _)); iexact H5
      isplitl [H6]; · iexists _; iexact H6
      iexists _; iexact H7

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the launch's form back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 10 := N_0; omega)

end Cert.KernelIdeal.Hand

end
-- ==== Proof.KiR1.lean ====
import proofs.«110525_j88974542504019_1_alg».proof.Proof.Gen.KernelIdeal.Launch
import proofs.«110525_j88974542504019_1_alg».proof.Proof.Gen.KernelIdeal.Skeleton
import proofs.«110525_j88974542504019_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

def out1_5 (x0 : Vec F S5000x128 .f32) (x1 x2 x3 x4 : Vec F S1x128 .f32) : Vec F S5000x128 .f32 :=
  View.canon [⟨r1_0, k1_pay1 (View.ld x0 r1_0) (View.ld x2 r1_1) (View.ld x1 r1_1) (View.ld x3 r1_1) (View.ld x4 r1_1)⟩]

theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 1000000 in
theorem sound_kernel1 (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRun.lean ====
import proofs.«110525_j88974542504019_1_alg».proof.Proof.KiR0
import proofs.«110525_j88974542504019_1_alg».proof.Proof.KiR1
import proofs.«110525_j88974542504019_1_alg».proof.Proof.Gen.KernelIdeal.Launch
import proofs.«110525_j88974542504019_1_alg».proof.Proof.Gen.KernelIdeal.Skeleton
import proofs.«110525_j88974542504019_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at the five boundaries of @main: launch, then after each host stretch and each region in turn. -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev wr0 : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25]
theorem hostOps0_writes : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
abbrev wr1 : List (Ref sig .tc) := [main_cst_4, main_v27, main_v28, main_cst_5, main_v29, main_v30, main_v31, main_v32, main_v33, main_v34]
theorem hostOps1_writes : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem W1_of (c : Dev nD) (r : Ref sig .tc) (h : r ∉ wr0) : W1 m ρ c (Proc.devRef .tc r) = W0 m ρ c (Proc.devRef .tc r) :=
  StableHlo.after_of_writes_sub hostOps0 _ hostOps0_writes h
theorem W3_of (c : Dev nD) (r : Ref sig .tc) (h : r ∉ wr1) : W3 m ρ c (Proc.devRef .tc r) = W2 m ρ c (Proc.devRef .tc r) :=
  StableHlo.after_of_writes_sub hostOps1 _ hostOps1_writes h

/-- Argument 0 is the array of an input window of region 0. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) :=
          (W2_arr m ρ c 1).trans (((dat0 (V1 m ρ) c).arrAt_in 1 rfl _).trans (A_eq0 (V1 m ρ) c 1))
    _ = W0 m ρ c (Proc.devRef .tc main_arg0) := W1_of m ρ c main_arg0 (by decide)
    _ = m ((c : Thread nD τ).loc main_arg0) := rfl

/-- A buffer that is no window array of either region and no result of either host stretch is passed on by every
    boundary, so at the last one it is as launched. -/
theorem W4_pass (c : Dev nD) (r : Ref sig .tc) (h4 : ∀ w, Pipeline.arrRef spec1 w ≠ r) (h3 : r ∉ wr1)
    (h2 : ∀ w, Pipeline.arrRef spec0 w ≠ r) (h1 : r ∉ wr0) : W4 m ρ c (Proc.devRef .tc r) = m ((c : Thread nD τ).loc r) :=
  (W4_of_ne m ρ c r h4).trans ((W3_of m ρ c r h3).trans ((W2_of_ne m ρ c r h2).trans (W1_of m ρ c r h1)))

theorem W4_main_arg1 (c : Dev nD) : W4 m ρ c (Proc.devRef .tc main_arg1) = m ((c : Thread nD τ).loc main_arg1) :=
  W4_pass m ρ c main_arg1 (by decide) (by decide) (by decide) (by decide)
theorem W4_main_arg2 (c : Dev nD) : W4 m ρ c (Proc.devRef .tc main_arg2) = m ((c : Thread nD τ).loc main_arg2) :=
  W4_pass m ρ c main_arg2 (by decide) (by decide) (by decide) (by decide)
theorem W4_main_arg3 (c : Dev nD) : W4 m ρ c (Proc.devRef .tc main_arg3) = m ((c : Thread nD τ).loc main_arg3) :=
  W4_pass m ρ c main_arg3 (by decide) (by decide) (by decide) (by decide)
theorem W4_main_arg4 (c : Dev nD) : W4 m ρ c (Proc.devRef .tc main_arg4) = m ((c : Thread nD τ).loc main_arg4) :=
  W4_pass m ρ c main_arg4 (by decide) (by decide) (by decide) (by decide)
theorem W4_main_arg5 (c : Dev nD) : W4 m ρ c (Proc.devRef .tc main_arg5) = m ((c : Thread nD τ).loc main_arg5) :=
  W4_pass m ρ c main_arg5 (by decide) (by decide) (by decide) (by decide)
theorem W4_main_arg6 (c : Dev nD) : W4 m ρ c (Proc.devRef .tc main_arg6) = m ((c : Thread nD τ).loc main_arg6) :=
  W4_pass m ρ c main_arg6 (by decide) (by decide) (by decide) (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (run_all m ρ).mono fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩

end Cert.KernelIdeal.Hand

end
-- ==== Proof.RefRead.lean ====
import proofs.«110525_j88974542504019_1_alg».proof.Proof.Gen.ReferenceIdeal.Run
import proofs.«110525_j88974542504019_1_alg».proof.Proof.Gen.ReferenceIdeal.Read
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

/-! The layer as functions of the aggregate and the arguments, entry by entry over the extended reals. `layerK` adds the
bias last and takes the variance as E[h²] − E[h]²; `layerR` adds the bias after the first product and takes it as
E[(h − E h)²]. `cnt` is the float 50000, `eps` the float 1e-5. -/

abbrev SN : Shape := ⟨2, ![50000, 128]⟩
abbrev SW : Shape := ⟨2, ![128, 128]⟩
abbrev SC : Shape := ⟨1, ![128]⟩

def cnt : EReal := Ideal.ofBits .f32 0x47435000#32
def eps : EReal := Ideal.ofBits .f32 0x3727C5AC#32

def dotRow (u : SN.Idx → EReal) (w : SW.Idx → EReal) (r : Fin 50000) (j : Fin 128) : EReal :=
  ∑ k : Fin 128, u (ix2 r k) * w (ix2 j k)

def preK (a x : SN.Idx → EReal) (wl wr : SW.Idx → EReal) (b : SC.Idx → EReal) (r : Fin 50000) (j : Fin 128) : EReal :=
  (dotRow a wl r j + dotRow x wr r j) + b (ix1 j)

def preR (a x : SN.Idx → EReal) (wl wr : SW.Idx → EReal) (b : SC.Idx → EReal) (r : Fin 50000) (j : Fin 128) : EReal :=
  (dotRow a wl r j + b (ix1 j)) + dotRow x wr r j

def mean (h : Fin 50000 → Fin 128 → EReal) (j : Fin 128) : EReal := Ideal.div (∑ r : Fin 50000, h r j) cnt

def varK (h : Fin 50000 → Fin 128 → EReal) (j : Fin 128) : EReal :=
  Ideal.div (∑ r : Fin 50000, h r j * h r j) cnt - mean h j * mean h j

def varR (h : Fin 50000 → Fin 128 → EReal) (j : Fin 128) : EReal :=
  Ideal.div (∑ r : Fin 50000, (h r j - mean h j) * (h r j - mean h j)) cnt

def normRelu (h : Fin 50000 → Fin 128 → EReal) (mu var : Fin 128 → EReal) (g be : SC.Idx → EReal)
    (r : Fin 50000) (j : Fin 128) : EReal :=
  max ((((h r j - mu j) * Ideal.rsqrt (var j + eps)) * g (ix1 j)) + be (ix1 j)) 0

def layerK (a x : SN.Idx → EReal) (wl wr : SW.Idx → EReal) (b g be : SC.Idx → EReal) (r : Fin 50000) (j : Fin 128) : EReal :=
  normRelu (preK a x wl wr b) (mean (preK a x wl wr b)) (varK (preK a x wl wr b)) g be r j

def layerR (a x : SN.Idx → EReal) (wl wr : SW.Idx → EReal) (b g be : SC.Idx → EReal) (r : Fin 50000) (j : Fin 128) : EReal :=
  normRelu (preR a x wl wr b) (mean (preR a x wl wr b)) (varR (preR a x wl wr b)) g be r j

end Cert.Spec

end
-- ==== Proof.KiHost.lean ====
import proofs.«110525_j88974542504019_1_alg».proof.Proof.KiRun
import proofs.«110525_j88974542504019_1_alg».proof.Proof.RefRead
import proofs.«110525_j88974542504019_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem Idealize.ShloMosaic.StableHlo

section AnyFloat
variable {F : FTy → Type} [FloatOps F]
variable (m : (ℓ : Loc nD τ sig) → Buf (Elt F) ℓ) (ρ : Dev nD → PrngReg) (c : Dev nD)

set_option maxHeartbeats 4000000 in
theorem V1_v22_any : V1 m ρ c main_v22 = Cert.ReferenceIdeal.Read.val_main_v22 (F := F) (m ((c.tc : Thread nD τ).loc main_arg0)) (m ((c.tc : Thread nD τ).loc main_arg1)) := by
  show StableHlo.after hostOps0 (fun b => m (c, b)) (Proc.devRef .tc main_v22) = _
  after_results_simp
  simp only [Cert.ReferenceIdeal.Read.val_main_v22, Cert.ReferenceIdeal.Read.val_main_v21, Cert.ReferenceIdeal.Read.val_main_v20, Cert.ReferenceIdeal.Read.val_main_v19, Cert.ReferenceIdeal.Read.val_main_v18, Cert.ReferenceIdeal.Read.val_main_cst_3, Cert.ReferenceIdeal.Read.val_main_v17, Cert.ReferenceIdeal.Read.val_main_v16, Cert.ReferenceIdeal.Read.val_main_v15, Cert.ReferenceIdeal.Read.val_main_cst_2, Cert.ReferenceIdeal.Read.val_main_v14, Cert.ReferenceIdeal.Read.val_main_cst_1, Cert.ReferenceIdeal.Read.val_main_v13, Cert.ReferenceIdeal.Read.val_main_v12, Cert.ReferenceIdeal.Read.val_main_v11, Cert.ReferenceIdeal.Read.val_main_cst, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_c_0, Cert.ReferenceIdeal.Read.val_main_v5, Cert.ReferenceIdeal.Read.val_main_v4, Cert.ReferenceIdeal.Read.val_main_c, Cert.ReferenceIdeal.Read.val_main_v3, Cert.ReferenceIdeal.Read.val_main_v2, Cert.ReferenceIdeal.Read.val_main_v1, Cert.ReferenceIdeal.Read.val_main_v0]
  rfl
end AnyFloat

variable (m : (ℓ : Loc nD τ sig) → Buf (Elt Ideal) ℓ) (ρ : Dev nD → PrngReg) (c : Dev nD)

theorem hostDivf_at {s : Shape} {φ : FTy} (a b : FVec Ideal s φ) (i : s.Idx) : Host.divf a b i = Ideal.div (a i) (b i) := rfl

theorem cnt_row (j : Fin 128) :
    broadcastInDim S1x128 ![] bcast_S_S1x128 (constant (F := Ideal) S_ .f32 0x47435000#32) (ix2 0 j) = Cert.Spec.cnt :=
  broadcastInDim_apply _ bcast_S_S1x128 _ (ix2 0 j) ix0 (fun a => a.elim0)

theorem V1_v22 : V1 m ρ c main_v22 = Cert.ReferenceIdeal.Read.val_main_v22 (F := Ideal) (m ((c.tc : Thread nD τ).loc main_arg0)) (m ((c.tc : Thread nD τ).loc main_arg1)) :=
  V1_v22_any m ρ c
theorem V1_v23 (k j : Fin 128) : (V1 m ρ c main_v23 : S128x128.Idx → EReal) (ix2 k j) = (m ((c.tc : Thread nD τ).loc main_arg2) : S128x128.Idx → EReal) (ix2 j k) := by
  show (StableHlo.after hostOps0 (fun b => m (c, b)) (Proc.devRef .tc main_v23) : S128x128.Idx → EReal) (ix2 k j) = _
  after_results
  exact transpose_ix2_apply _ _ k j
theorem V1_v24 (k j : Fin 128) : (V1 m ρ c main_v24 : S128x128.Idx → EReal) (ix2 k j) = (m ((c.tc : Thread nD τ).loc main_arg4) : S128x128.Idx → EReal) (ix2 j k) := by
  show (StableHlo.after hostOps0 (fun b => m (c, b)) (Proc.devRef .tc main_v24) : S128x128.Idx → EReal) (ix2 k j) = _
  after_results
  exact transpose_ix2_apply _ _ k j
theorem V1_v25 (j : Fin 128) : (V1 m ρ c main_v25 : S1x128.Idx → EReal) (ix2 0 j) = (m ((c.tc : Thread nD τ).loc main_arg3) : S128.Idx → EReal) (ix1 j) := by
  show (StableHlo.after hostOps0 (fun b => m (c, b)) (Proc.devRef .tc main_v25) : S1x128.Idx → EReal) (ix2 0 j) = _
  after_results
  exact shapeCast_a_1a_apply _ _ 0 j
theorem V1_arg0 : V1 m ρ c main_arg0 = m ((c.tc : Thread nD τ).loc main_arg0) := W1_of m ρ c main_arg0 (by decide)

theorem V3_v28 (j : Fin 128) : (V3 m ρ c main_v28 : S1x128.Idx → EReal) (ix2 0 j) = Ideal.div ((V2 m ρ c main_v26_1 : S1x128.Idx → EReal) (ix2 0 j)) Cert.Spec.cnt := by
  show (StableHlo.after hostOps1 (W2 m ρ c) (Proc.devRef .tc main_v28) : S1x128.Idx → EReal) (ix2 0 j) = _
  after_results
  rw [hostDivf_at, cnt_row]
theorem V3_v32 (j : Fin 128) : (V3 m ρ c main_v32 : S1x128.Idx → EReal) (ix2 0 j)
    = Ideal.div ((V2 m ρ c main_v26_2 : S1x128.Idx → EReal) (ix2 0 j)) Cert.Spec.cnt
      - Ideal.div ((V2 m ρ c main_v26_1 : S1x128.Idx → EReal) (ix2 0 j)) Cert.Spec.cnt * Ideal.div ((V2 m ρ c main_v26_1 : S1x128.Idx → EReal) (ix2 0 j)) Cert.Spec.cnt := by
  show (StableHlo.after hostOps1 (W2 m ρ c) (Proc.devRef .tc main_v32) : S1x128.Idx → EReal) (ix2 0 j) = _
  after_results
  rw [subf_apply, mulf_apply, hostDivf_at, hostDivf_at, cnt_row]
theorem V3_v33 (j : Fin 128) : (V3 m ρ c main_v33 : S1x128.Idx → EReal) (ix2 0 j) = (m ((c.tc : Thread nD τ).loc main_arg5) : S128.Idx → EReal) (ix1 j) := by
  show (StableHlo.after hostOps1 (W2 m ρ c) (Proc.devRef .tc main_v33) : S1x128.Idx → EReal) (ix2 0 j) = _
  after_results
  rw [show W2 m ρ c (Proc.devRef .tc main_arg5) = m ((c.tc : Thread nD τ).loc main_arg5) from
    (W2_of_ne m ρ c main_arg5 (by decide)).trans (W1_of m ρ c main_arg5 (by decide))]
  exact shapeCast_a_1a_apply _ _ 0 j
theorem V3_v34 (j : Fin 128) : (V3 m ρ c main_v34 : S1x128.Idx → EReal) (ix2 0 j) = (m ((c.tc : Thread nD τ).loc main_arg6) : S128.Idx → EReal) (ix1 j) := by
  show (StableHlo.after hostOps1 (W2 m ρ c) (Proc.devRef .tc main_v34) : S1x128.Idx → EReal) (ix2 0 j) = _
  after_results
  rw [show W2 m ρ c (Proc.devRef .tc main_arg6) = m ((c.tc : Thread nD τ).loc main_arg6) from
    (W2_of_ne m ρ c main_arg6 (by decide)).trans (W1_of m ρ c main_arg6 (by decide))]
  exact shapeCast_a_1a_apply _ _ 0 j
theorem V3_v26_0 : V3 m ρ c main_v26_0 = V2 m ρ c main_v26_0 := W3_of m ρ c main_v26_0 (by decide)

end Cert.KernelIdeal.Hand

end
-- ==== Proof.KiR0Value.lean ====
import proofs.«110525_j88974542504019_1_alg».proof.Proof.KiR0
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open scoped BigOperators

/-! ## Each buffer's stored pieces, read back, are one payload of the loaded blocks -/

section Pieces
variable {F : FTy → Type} [FloatOps F]

theorem offs_zero : (![0, 0] : Fin 2 → Nat) = fun _ => 0 := funext fun a => by fin_cases a <;> rfl

variable (c : Dev nD) (i : grid0.Coords) (a : Args0) (x0 x1 : Vec F S5000x128 .f32) (x2 x3 : Vec F S128x128 .f32) (x4 : Vec F S1x128 .f32)

section A
variable (hc0 : cond0_0 i) (hc1 : ¬cond0_1 i)

theorem out0_A_5_eq : (outs0_A c i a x0 x1 x2 x3 x4 hc0 hc1).1 = k0_pay4 x0 x1 x2 x3 x4 := by
  unfold outs0_A readBack
  dsimp only
  rw [View.read_writes_eq_canon _ _ _ (cover0_A_5 c i a x0 x1 x2 x3 x4 hc0 hc1)]
  unfold runA kernelRun0_A
  dsimp only
  sl_unfold_words
  rw [View.canon_cons_unit_zero (S := S5000x128) offs_zero]
  simp only [View.readAt_eq_ld, a.h1.read_unread, a.h2.read_unread, a.h3.read_unread, a.h4.read_unread, a.h5.read_unread, a.h9.read_unread, a.h10.read_unread, View.ld_unit_zero (S := S5000x128) offs_zero, View.ld_unit_zero (S := S128x128) offs_zero, View.ld_unit_zero (S := S1x128) offs_zero, View.readCov_unit_zero (S := S1x128) _ offs_zero]

theorem sout0_A_0_eq : (outs0_A c i a x0 x1 x2 x3 x4 hc0 hc1).2.2.2.1 = k0_pay5 x0 x1 x2 x3 x4 (k0_pay2 (F := F)) := by
  show VS0_0.read (Elt F) (VS0_0.writes (Elt F) VS0_0.junk (runA c i a x0 x1 x2 x3 x4 hc0 hc1).2.2.2.1) = _
  rw [View.read_writes_eq_canon _ _ _ (scover0_A_0 c i a x0 x1 x2 x3 x4 hc0 hc1)]
  unfold runA kernelRun0_A
  dsimp only
  sl_unfold_words
  rw [View.canon_cons_unit_zero (S := S1x128) offs_zero]
  simp only [View.readAt_eq_ld, a.h1.read_unread, a.h2.read_unread, a.h3.read_unread, a.h4.read_unread, a.h5.read_unread, a.h9.read_unread, a.h10.read_unread, View.ld_unit_zero (S := S5000x128) offs_zero, View.ld_unit_zero (S := S128x128) offs_zero, View.ld_unit_zero (S := S1x128) offs_zero, View.readCov_unit_zero (S := S1x128) _ offs_zero]

theorem sout0_A_1_eq : (outs0_A c i a x0 x1 x2 x3 x4 hc0 hc1).2.2.2.2 = k0_pay1 (k0_pay3 (F := F)) (k0_pay6 x0 x1 x2 x3 x4) := by
  show VS0_1.read (Elt F) (VS0_1.writes (Elt F) VS0_1.junk (runA c i a x0 x1 x2 x3 x4 hc0 hc1).2.2.2.2.1) = _
  rw [View.read_writes_eq_canon _ _ _ (scover0_A_1 c i a x0 x1 x2 x3 x4 hc0 hc1)]
  unfold runA kernelRun0_A
  dsimp only
  sl_unfold_words
  rw [View.canon_cons_unit_zero (S := S1x128) offs_zero]
  simp only [View.readAt_eq_ld, a.h1.read_unread, a.h2.read_unread, a.h3.read_unread, a.h4.read_unread, a.h5.read_unread, a.h9.read_unread, a.h10.read_unread, View.ld_unit_zero (S := S5000x128) offs_zero, View.ld_unit_zero (S := S128x128) offs_zero, View.ld_unit_zero (S := S1x128) offs_zero, View.readCov_unit_zero (S := S1x128) _ offs_zero]

end A

section B
variable (hc0 : ¬cond0_0 i) (hc1 : ¬cond0_1 i) (xs0 xs1 : Vec F S1x128 .f32)

theorem out0_B_5_eq : (outs0_B c i a x0 x1 x2 x3 x4 hc0 hc1 xs0 xs1).1 = k0_pay4 x0 x1 x2 x3 x4 := by
  unfold outs0_B readBack
  dsimp only
  rw [View.read_writes_eq_canon _ _ _ (cover0_B_5 c i a x0 x1 x2 x3 x4 hc0 hc1 xs0 xs1)]
  unfold runB kernelRun0_B
  dsimp only
  sl_unfold_words
  rw [View.canon_cons_unit_zero (S := S5000x128) offs_zero]
  simp only [View.readAt_eq_ld, a.h1.read_unread, a.h2.read_unread, a.h3.read_unread, a.h4.read_unread, a.h5.read_unread, a.h9.read_unread, a.h10.read_unread, View.ld_unit_zero (S := S5000x128) offs_zero, View.ld_unit_zero (S := S128x128) offs_zero, View.ld_unit_zero (S := S1x128) offs_zero, View.readCov_unit_zero (S := S1x128) _ offs_zero]

theorem sout0_B_0_eq : (outs0_B c i a x0 x1 x2 x3 x4 hc0 hc1 xs0 xs1).2.2.2.1 = k0_pay5 x0 x1 x2 x3 x4 xs0 := by
  show VS0_0.read (Elt F) (VS0_0.writes (Elt F) VS0_0.junk (runB c i a x0 x1 x2 x3 x4 hc0 hc1 xs0 xs1).2.2.2.1) = _
  rw [View.read_writes_eq_canon _ _ _ (scover0_B_0 c i a x0 x1 x2 x3 x4 hc0 hc1 xs0 xs1)]
  unfold runB kernelRun0_B
  dsimp only
  sl_unfold_words
  rw [View.canon_cons_unit_zero (S := S1x128) offs_zero]
  simp only [View.readAt_eq_ld, a.h1.read_unread, a.h2.read_unread, a.h3.read_unread, a.h4.read_unread, a.h5.read_unread, a.h9.read_unread, a.h10.read_unread, View.ld_unit_zero (S := S5000x128) offs_zero, View.ld_unit_zero (S := S128x128) offs_zero, View.ld_unit_zero (S := S1x128) offs_zero, View.readCov_unit_zero (S := S1x128) _ offs_zero]

theorem sout0_B_1_eq : (outs0_B c i a x0 x1 x2 x3 x4 hc0 hc1 xs0 xs1).2.2.2.2 = k0_pay1 xs1 (k0_pay6 x0 x1 x2 x3 x4) := by
  show VS0_1.read (Elt F) (VS0_1.writes (Elt F) VS0_1.junk (runB c i a x0 x1 x2 x3 x4 hc0 hc1 xs0 xs1).2.2.2.2.1) = _
  rw [View.read_writes_eq_canon _ _ _ (scover0_B_1 c i a x0 x1 x2 x3 x4 hc0 hc1 xs0 xs1)]
  unfold runB kernelRun0_B
  dsimp only
  sl_unfold_words
  rw [View.canon_cons_unit_zero (S := S1x128) offs_zero]
  simp only [View.readAt_eq_ld, a.h1.read_unread, a.h2.read_unread, a.h3.read_unread, a.h4.read_unread, a.h5.read_unread, a.h9.read_unread, a.h10.read_unread, View.ld_unit_zero (S := S5000x128) offs_zero, View.ld_unit_zero (S := S128x128) offs_zero, View.ld_unit_zero (S := S1x128) offs_zero, View.readCov_unit_zero (S := S1x128) _ offs_zero]

end B

section C
variable (hc0 : ¬cond0_0 i) (hc1 : cond0_1 i) (xs0 xs1 : Vec F S1x128 .f32)

theorem out0_C_5_eq : (outs0_C c i a x0 x1 x2 x3 x4 hc0 hc1 xs0 xs1).1 = k0_pay4 x0 x1 x2 x3 x4 := by
  unfold outs0_C readBack
  dsimp only
  rw [View.read_writes_eq_canon _ _ _ (cover0_C_5 c i a x0 x1 x2 x3 x4 hc0 hc1 xs0 xs1)]
  unfold runC kernelRun0_C
  dsimp only
  sl_unfold_words
  rw [View.canon_cons_unit_zero (S := S5000x128) offs_zero]
  simp only [View.readAt_eq_ld, a.h1.read_unread, a.h2.read_unread, a.h3.read_unread, a.h4.read_unread, a.h5.read_unread, a.h9.read_unread, a.h10.read_unread, View.ld_unit_zero (S := S5000x128) offs_zero, View.ld_unit_zero (S := S128x128) offs_zero, View.ld_unit_zero (S := S1x128) offs_zero, View.readCov_unit_zero (S := S1x128) _ offs_zero]

theorem out0_C_6_eq : (outs0_C c i a x0 x1 x2 x3 x4 hc0 hc1 xs0 xs1).2.1 = k0_pay5 x0 x1 x2 x3 x4 xs0 := by
  show VO0_6.read (Elt F) (VO0_6.writes (Elt F) VO0_6.junk (runC c i a x0 x1 x2 x3 x4 hc0 hc1 xs0 xs1).2.1) = _
  rw [View.read_writes_eq_canon _ _ _ (cover0_C_6 c i a x0 x1 x2 x3 x4 hc0 hc1 xs0 xs1)]
  unfold runC kernelRun0_C
  dsimp only
  sl_unfold_words
  rw [View.canon_cons_unit_zero (S := S1x128) offs_zero]
  simp only [View.readAt_eq_ld, a.h1.read_unread, a.h2.read_unread, a.h3.read_unread, a.h4.read_unread, a.h5.read_unread, a.h9.read_unread, a.h10.read_unread, View.ld_unit_zero (S := S5000x128) offs_zero, View.ld_unit_zero (S := S128x128) offs_zero, View.ld_unit_zero (S := S1x128) offs_zero, View.readCov_unit_zero (S := S1x128) _ offs_zero]

theorem out0_C_7_eq : (outs0_C c i a x0 x1 x2 x3 x4 hc0 hc1 xs0 xs1).2.2.1 = k0_pay1 xs1 (k0_pay6 x0 x1 x2 x3 x4) := by
  show VO0_7.read (Elt F) (VO0_7.writes (Elt F) VO0_7.junk (runC c i a x0 x1 x2 x3 x4 hc0 hc1 xs0 xs1).2.2.1) = _
  rw [View.read_writes_eq_canon _ _ _ (cover0_C_7 c i a x0 x1 x2 x3 x4 hc0 hc1 xs0 xs1)]
  unfold runC kernelRun0_C
  dsimp only
  sl_unfold_words
  rw [View.canon_cons_unit_zero (S := S1x128) offs_zero]
  simp only [View.readAt_eq_ld, a.h1.read_unread, a.h2.read_unread, a.h3.read_unread, a.h4.read_unread, a.h5.read_unread, a.h9.read_unread, a.h10.read_unread, View.ld_unit_zero (S := S5000x128) offs_zero, View.ld_unit_zero (S := S128x128) offs_zero, View.ld_unit_zero (S := S1x128) offs_zero, View.readCov_unit_zero (S := S1x128) _ offs_zero]

theorem sout0_C_0_eq : (outs0_C c i a x0 x1 x2 x3 x4 hc0 hc1 xs0 xs1).2.2.2.1 = k0_pay5 x0 x1 x2 x3 x4 xs0 := by
  show VS0_0.read (Elt F) (VS0_0.writes (Elt F) VS0_0.junk (runC c i a x0 x1 x2 x3 x4 hc0 hc1 xs0 xs1).2.2.2.1) = _
  rw [View.read_writes_eq_canon _ _ _ (scover0_C_0 c i a x0 x1 x2 x3 x4 hc0 hc1 xs0 xs1)]
  unfold runC kernelRun0_C
  dsimp only
  sl_unfold_words
  rw [View.canon_cons_unit_zero (S := S1x128) offs_zero]
  simp only [View.readAt_eq_ld, a.h1.read_unread, a.h2.read_unread, a.h3.read_unread, a.h4.read_unread, a.h5.read_unread, a.h9.read_unread, a.h10.read_unread, View.ld_unit_zero (S := S5000x128) offs_zero, View.ld_unit_zero (S := S128x128) offs_zero, View.ld_unit_zero (S := S1x128) offs_zero, View.readCov_unit_zero (S := S1x128) _ offs_zero]

theorem sout0_C_1_eq : (outs0_C c i a x0 x1 x2 x3 x4 hc0 hc1 xs0 xs1).2.2.2.2 = k0_pay1 xs1 (k0_pay6 x0 x1 x2 x3 x4) := by
  show VS0_1.read (Elt F) (VS0_1.writes (Elt F) VS0_1.junk (runC c i a x0 x1 x2 x3 x4 hc0 hc1 xs0 xs1).2.2.2.2.1) = _
  rw [View.read_writes_eq_canon _ _ _ (scover0_C_1 c i a x0 x1 x2 x3 x4 hc0 hc1 xs0 xs1)]
  unfold runC kernelRun0_C
  dsimp only
  sl_unfold_words
  rw [View.canon_cons_unit_zero (S := S1x128) offs_zero]
  simp only [View.readAt_eq_ld, a.h1.read_unread, a.h2.read_unread, a.h3.read_unread, a.h4.read_unread, a.h5.read_unread, a.h9.read_unread, a.h10.read_unread, View.ld_unit_zero (S := S5000x128) offs_zero, View.ld_unit_zero (S := S128x128) offs_zero, View.ld_unit_zero (S := S1x128) offs_zero, View.readCov_unit_zero (S := S1x128) _ offs_zero]

end C

end Pieces

section AtIndex

theorem mm_lhs_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm_lhs_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
theorem mm_rhs_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem mm_rhs_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem matmul_zero_apply {φ₁ φ₂ : FTy} (a : FVec Ideal S5000x128 φ₁) (b : FVec Ideal S128x128 φ₂) (p : Fin 5000) (q : Fin 128) :
    matmul dot_S5000x128_S128x128_S5000x128_1_0_0_1_n_n none a b (constant S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact mm_lhs_0 _ _
    | ⟨1, _⟩ => exact (mm_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (mm_rhs_0 _ _).trans hk
    | ⟨1, _⟩ => exact mm_rhs_1 _ _)
  rw [el, er]

theorem pay4_apply (x0 x1 : Vec Ideal S5000x128 .f32) (x2 x3 : Vec Ideal S128x128 .f32) (x4 : Vec Ideal S1x128 .f32)
    (p : Fin 5000) (q : Fin 128) :
    k0_pay4 (F := Ideal) x0 x1 x2 x3 x4 (ix2 p q)
      = ((∑ k : Fin 128, x0 (ix2 p k) * x2 (ix2 k q)) + (∑ k : Fin 128, x1 (ix2 p k) * x3 (ix2 k q))) + x4 (ix2 0 q) := by
  unfold k0_pay4
  simp only [shapeCast_self]
  rw [addf_apply, addf_apply, broadcastTo_1b_ab_apply, matmul_zero_apply, matmul_zero_apply]
  simp only [truncf_apply]

theorem colsum_apply (src : FVec Ideal S5000x128 .f32) (hφ : FKind.Formats .f32)
    (hacc : (0x00000000#32 : BitVec 32) = 0x00000000#32) (q : Fin 128) :
    multiReduction .add [0] S128 src 0x00000000#32 reduces_S5000x128_S128 hφ hacc (ix1 q) = ∑ p : Fin 5000, src (ix2 p q) := by
  refine (Ideal.multiReduction_add_single src 0x00000000#32 reduces_S5000x128_S128 hφ hacc (ix1 q)).trans ?_
  refine Finset.sum_congr rfl fun p _ => congrArg src ?_
  funext ax
  apply Fin.ext
  rw [Shape.Reduces.lift_val]
  match ax with
  | ⟨0, _⟩ => rfl
  | ⟨1, _⟩ => rfl

theorem pay5_apply (x0 x1 : Vec Ideal S5000x128 .f32) (x2 x3 : Vec Ideal S128x128 .f32) (x4 v : Vec Ideal S1x128 .f32)
    (q : Fin 128) :
    k0_pay5 (F := Ideal) x0 x1 x2 x3 x4 v (ix2 0 q)
      = v (ix2 0 q) + ∑ p : Fin 5000, k0_pay4 (F := Ideal) x0 x1 x2 x3 x4 (ix2 p q) := by
  unfold k0_pay5
  simp only [shapeCast_self]
  rw [addf_apply, shapeCast_a_1a_apply]
  exact congrArg (v (ix2 0 q) + ·) (colsum_apply _ _ _ q)

theorem pay6_apply (x0 x1 : Vec Ideal S5000x128 .f32) (x2 x3 : Vec Ideal S128x128 .f32) (x4 : Vec Ideal S1x128 .f32)
    (q : Fin 128) :
    k0_pay6 (F := Ideal) x0 x1 x2 x3 x4 (ix1 q)
      = ∑ p : Fin 5000, k0_pay4 (F := Ideal) x0 x1 x2 x3 x4 (ix2 p q) * k0_pay4 (F := Ideal) x0 x1 x2 x3 x4 (ix2 p q) := by
  unfold k0_pay6
  refine (colsum_apply _ _ _ q).trans ?_
  simp only [mulf_apply]

theorem pay1_apply (v : Vec Ideal S1x128 .f32) (u : FVec Ideal S128 .f32) (q : Fin 128) :
    k0_pay1 (F := Ideal) v u (ix2 0 q) = v (ix2 0 q) + u (ix1 q) := by
  unfold k0_pay1
  simp only [shapeCast_self]
  rw [addf_apply, shapeCast_a_1a_apply]

theorem pay2_apply (q : Fin 128) : k0_pay2 (F := Ideal) (ix2 0 q) = 0 := by
  unfold k0_pay2
  simp only [shapeCast_self]
  rw [broadcast_apply]
  exact Ideal.ofBits_zero_f32

theorem pay3_apply (q : Fin 128) : k0_pay3 (F := Ideal) (ix2 0 q) = 0 := by
  unfold k0_pay3
  simp only [shapeCast_self]
  rw [broadcast_apply]
  exact Ideal.ofBits_zero_f32

end AtIndex

end Cert.KernelIdeal.Hand

end
-- ==== Proof.KiR0Final5.lean ====
import proofs.«110525_j88974542504019_1_alg».proof.Proof.KiR0
import proofs.«110525_j88974542504019_1_alg».proof.Proof.KiR0Value
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

abbrev aggArr (c : Dev nD) : S50000x128.Idx → EReal := V c main_v22
abbrev nodeArr (c : Dev nD) : S50000x128.Idx → EReal := V c main_arg0
abbrev wlArr (c : Dev nD) : S128x128.Idx → EReal := V c main_v23
abbrev wrArr (c : Dev nD) : S128x128.Idx → EReal := V c main_v24
abbrev biasArr (c : Dev nD) : S1x128.Idx → EReal := V c main_v25

def featK (c : Dev nD) (r : Fin 50000) (j : Fin 128) : EReal :=
  ((∑ k : Fin 128, aggArr V c (ix2 r k) * wlArr V c (ix2 k j))
    + (∑ k : Fin 128, nodeArr V c (ix2 r k) * wrArr V c (ix2 k j)))
    + biasArr V c (ix2 0 j)

theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row_lt (t : Fin cfg0.N) (p : Fin 5000) : 5000 * t.val + p.val < 50000 := by
  have := t.isLt; have : cfg0.N = 10 := N_0; omega

theorem aggBlk_apply (c : Dev nD) (t : Fin cfg0.N) (p : Fin 5000) (k : Fin 128) :
    (iblk0 V c 0 t : Vec Ideal S5000x128 .f32) (ix2 p k)
      = (V c main_v22 : S50000x128.Idx → EReal) (ix2 ⟨5000 * t.val + p.val, row_lt t p⟩ k) := by
  obtain ⟨e00, e01, -⟩ := idx_rows t
  unfold iblk0
  rw [View.read_apply]
  show V c main_v22 _ = V c main_v22 _
  congr 1
  funext a
  apply Fin.ext
  match a with
  | ⟨0, _⟩ => show win0_0.index t (0 : Fin 2) * 5000 + 1 * p.val = 5000 * t.val + p.val; rw [e00]; omega
  | ⟨1, _⟩ => show win0_0.index t (1 : Fin 2) * 128 + 1 * k.val = k.val; rw [e01]; omega

theorem nodeBlk_apply (c : Dev nD) (t : Fin cfg0.N) (p : Fin 5000) (k : Fin 128) :
    (iblk0 V c 1 t : Vec Ideal S5000x128 .f32) (ix2 p k)
      = (V c main_arg0 : S50000x128.Idx → EReal) (ix2 ⟨5000 * t.val + p.val, row_lt t p⟩ k) := by
  obtain ⟨-, -, e10, e11, -⟩ := idx_rows t
  unfold iblk0
  rw [View.read_apply]
  show V c main_arg0 _ = V c main_arg0 _
  congr 1
  funext a
  apply Fin.ext
  match a with
  | ⟨0, _⟩ => show win0_1.index t (0 : Fin 2) * 5000 + 1 * p.val = 5000 * t.val + p.val; rw [e10]; omega
  | ⟨1, _⟩ => show win0_1.index t (1 : Fin 2) * 128 + 1 * k.val = k.val; rw [e11]; omega

theorem wlBlk_apply (c : Dev nD) (t : Fin cfg0.N) (k : Fin 128) (q : Fin 128) :
    (iblk0 V c 2 t : Vec Ideal S128x128 .f32) (ix2 k q) = (V c main_v23 : S128x128.Idx → EReal) (ix2 k q) := by
  obtain ⟨-, -, -, -, e20, e21, -⟩ := idx_rows t
  unfold iblk0
  rw [View.read_apply]
  show V c main_v23 _ = V c main_v23 _
  congr 1
  funext a
  apply Fin.ext
  match a with
  | ⟨0, _⟩ => show win0_2.index t (0 : Fin 2) * 128 + 1 * k.val = k.val; rw [e20]; omega
  | ⟨1, _⟩ => show win0_2.index t (1 : Fin 2) * 128 + 1 * q.val = q.val; rw [e21]; omega

theorem wrBlk_apply (c : Dev nD) (t : Fin cfg0.N) (k : Fin 128) (q : Fin 128) :
    (iblk0 V c 3 t : Vec Ideal S128x128 .f32) (ix2 k q) = (V c main_v24 : S128x128.Idx → EReal) (ix2 k q) := by
  obtain ⟨-, -, -, -, -, -, e30, e31, -⟩ := idx_rows t
  unfold iblk0
  rw [View.read_apply]
  show V c main_v24 _ = V c main_v24 _
  congr 1
  funext a
  apply Fin.ext
  match a with
  | ⟨0, _⟩ => show win0_3.index t (0 : Fin 2) * 128 + 1 * k.val = k.val; rw [e30]; omega
  | ⟨1, _⟩ => show win0_3.index t (1 : Fin 2) * 128 + 1 * q.val = q.val; rw [e31]; omega

theorem biasBlk_apply (c : Dev nD) (t : Fin cfg0.N) (q : Fin 128) :
    (iblk0 V c 4 t : Vec Ideal S1x128 .f32) (ix2 0 q) = (V c main_v25 : S1x128.Idx → EReal) (ix2 0 q) := by
  obtain ⟨-, -, -, -, -, -, -, -, e40, e41, -⟩ := idx_rows t
  unfold iblk0
  rw [View.read_apply]
  show V c main_v25 _ = V c main_v25 _
  congr 1
  funext a
  apply Fin.ext
  match a with
  | ⟨0, _⟩ => show win0_4.index t (0 : Fin 2) * 1 + 1 * 0 = 0; rw [e40]
  | ⟨1, _⟩ => show win0_4.index t (1 : Fin 2) * 128 + 1 * q.val = q.val; rw [e41]; omega

theorem mem_outBlk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26_0).slice (win0_5.rect t)).set ↔ _
  rw [View.set_slice_whole, Rect.mem_set_unit]
  exact Iff.rfl

theorem out_cover (i : S50000x128.Idx) :
    ∃ t : Fin cfg0.N, (cfg0.win 5).flush t = true ∧ i ∈ ((cfg0.win 5).blk t).view.set := by
  have hN : cfg0.N = 10 := N_0
  have hi0 : (i 0).val < 50000 := (i 0).isLt
  have hi1 : (i 1).val < 128 := (i 1).isLt
  let t : Fin cfg0.N := ⟨(i 0).val / 5000, by omega⟩
  have ht : t.val = (i 0).val / 5000 := rfl
  obtain ⟨-, -, -, -, -, -, -, -, -, -, e50, e51⟩ := idx_rows t
  refine ⟨t, flush0_5 t, ?_⟩
  rw [mem_outBlk]
  intro a
  match a with
  | ⟨0, _⟩ => show win0_5.index t (0 : Fin 2) * 5000 ≤ (i 0).val ∧ (i 0).val < win0_5.index t (0 : Fin 2) * 5000 + 5000; rw [e50, ht]; omega
  | ⟨1, _⟩ => show win0_5.index t (1 : Fin 2) * 128 ≤ (i 1).val ∧ (i 1).val < win0_5.index t (1 : Fin 2) * 128 + 128; rw [e51]; omega

theorem pay4_blk (c : Dev nD) (t : Fin cfg0.N) (p : Fin 5000) (q : Fin 128) :
    k0_pay4 (F := Ideal) (iblk0 V c 0 t) (iblk0 V c 1 t) (iblk0 V c 2 t) (iblk0 V c 3 t) (iblk0 V c 4 t) (ix2 p q)
      = featK V c ⟨5000 * t.val + p.val, by have := t.isLt; have : cfg0.N = 10 := N_0; omega⟩ q := by
  refine (pay4_apply (iblk0 V c 0 t) (iblk0 V c 1 t) (iblk0 V c 2 t) (iblk0 V c 3 t) (iblk0 V c 4 t) p q).trans ?_
  unfold featK
  congr 1
  · congr 1
    · exact Finset.sum_congr rfl (fun k _ => by rw [aggBlk_apply V c t p k, wlBlk_apply V c t k q])
    · exact Finset.sum_congr rfl (fun k _ => by rw [nodeBlk_apply V c t p k, wrBlk_apply V c t k q])
  · exact biasBlk_apply V c t q

/-- All three control cases store the same payload into window 5's buffer: the feature at the rows of block t. -/
theorem out5_at (c : Dev nD) (t : Fin cfg0.N) (p : Fin 5000) (q : Fin 128) :
    (outsAt0 (F := Ideal) V c t.val t.isLt).1 (ix2 p q)
      = featK V c ⟨5000 * t.val + p.val, by have := t.isLt; have : cfg0.N = 10 := N_0; omega⟩ q := by
  refine Eq.trans ?_ (pay4_blk V c t p q)
  by_cases h0 : t.val % 10 = 0
  · rw [outsAt0_A V c t h0 (by omega)]
    exact congrFun (out0_A_5_eq (F := Ideal) c (grid0.coords t) (argsAt t) (iblk0 V c 0 t) (iblk0 V c 1 t) (iblk0 V c 2 t) (iblk0 V c 3 t) (iblk0 V c 4 t) _ _) (ix2 p q)
  · by_cases h1 : t.val % 10 = 9
    · rw [outsAt0_C V c t h0 h1]
      exact congrFun (out0_C_5_eq (F := Ideal) c (grid0.coords t) (argsAt t) (iblk0 V c 0 t) (iblk0 V c 1 t) (iblk0 V c 2 t) (iblk0 V c 3 t) (iblk0 V c 4 t) _ _ _ _) (ix2 p q)
    · rw [outsAt0_B V c t h0 h1]
      exact congrFun (out0_B_5_eq (F := Ideal) c (grid0.coords t) (argsAt t) (iblk0 V c 0 t) (iblk0 V c 1 t) (iblk0 V c 2 t) (iblk0 V c 3 t) (iblk0 V c 4 t) _ _ _ _) (ix2 p q)

abbrev featArr (c : Dev nD) : S50000x128.Idx → EReal := fun i => featK V c (i 0) (i 1)

theorem out5_blk (c : Dev nD) (t : Fin cfg0.N) (p : Fin 5000) (q : Fin 128) :
    (outsAt0 (F := Ideal) V c t.val t.isLt).1 (ix2 p q) = featArr V c (((cfg0.win 5).blk t).view.emb (ix2 p q)) := by
  obtain ⟨-, -, -, -, -, -, -, -, -, -, e50, e51⟩ := idx_rows t
  rw [out5_at V c t p q]
  show featK V c _ _ = featK V c ((((cfg0.win 5).blk t).view.emb (ix2 p q)) 0) ((((cfg0.win 5).blk t).view.emb (ix2 p q)) 1)
  congr 1
  · apply Fin.ext
    show 5000 * t.val + p.val = win0_5.index t (0 : Fin 2) * 5000 + 1 * p.val
    rw [e50]; omega
  · apply Fin.ext
    show q.val = win0_5.index t (1 : Fin 2) * 128 + 1 * q.val
    rw [e51]; omega

theorem flushed5_eq (c : Dev nD) (t : Fin cfg0.N) :
    (dat0 V c).flushed 5 t = ((cfg0.win 5).blk t).view.read (Elt Ideal) (featArr V c) := by
  show (cfg0.win 5).cut (grid0.coords t) ((dat0 V c).after 5 t) = _
  rw [after0_5]
  funext y
  obtain ⟨p, q, rfl⟩ : ∃ (p : Fin 5000) (q : Fin 128), y = ix2 p q := ⟨y 0, y 1, eq_ix2 y⟩
  exact out5_blk V c t p q

theorem final0_5 (c : Dev nD) (r : Fin 50000) (j : Fin 128) :
    (dat0 (F := Ideal) V c).arrAt 5 cfg0.N (ix2 r j) = featK V c r j := by
  rw [(dat0 V c).arrAt_eq_of_cover 5 (featArr V c) (fun t _ => flushed5_eq V c t) out_cover]

end Cert.KernelIdeal.Hand

end
-- ==== Proof.KiR1Value.lean ====
import proofs.«110525_j88974542504019_1_alg».proof.Proof.KiR1
import proofs.«110525_j88974542504019_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

theorem off_zero2 : (![0, 0] : Fin 2 → Nat) = fun _ => 0 := by
  funext a; fin_cases a <;> rfl

theorem out1_5_apply (x0 : Vec Ideal S5000x128 .f32) (x1 x2 x3 x4 : Vec Ideal S1x128 .f32) (p : Fin 5000) (q : Fin 128) :
    out1_5 (F := Ideal) x0 x1 x2 x3 x4 (ValueIdx.ix2 p q)
      = max ((((x0 (ValueIdx.ix2 p q) - x1 (ValueIdx.ix2 0 q)) * Ideal.rsqrt (x2 (ValueIdx.ix2 0 q) + Cert.Spec.eps))
          * x3 (ValueIdx.ix2 0 q)) + x4 (ValueIdx.ix2 0 q)) 0 := by
  unfold out1_5
  rw [View.canon_unit_zero off_zero2]
  simp only [View.ld_unit_zero (S := S5000x128) off_zero2, View.ld_unit_zero (S := S1x128) off_zero2]
  unfold k1_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  show max ((((x0 (ix2 p q) - x1 (ix2 0 q)) * Ideal.rsqrt (x2 (ix2 0 q) + Ideal.ofBits .f32 0x3727C5AC#32)) * x3 (ix2 0 q)) + x4 (ix2 0 q))
      (Ideal.ofBits .f32 0x00000000#32) = _
  rw [Ideal.ofBits_zero_f32]
  rfl

end Cert.KernelIdeal.Hand

end
-- ==== Proof.KiR1Final.lean ====
import proofs.«110525_j88974542504019_1_alg».proof.Proof.KiR1Value
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

def normArr (a0 : S50000x128.Idx → EReal) (a1 a2 a3 a4 : S1x128.Idx → EReal) : S50000x128.Idx → EReal :=
  fun i => max ((((a0 i - a1 (ix2 0 (i 1))) * Ideal.rsqrt (a2 (ix2 0 (i 1)) + Cert.Spec.eps)) * a3 (ix2 0 (i 1)))
      + a4 (ix2 0 (i 1))) 0

theorem normArr_apply (a0 : S50000x128.Idx → EReal) (a1 a2 a3 a4 : S1x128.Idx → EReal) (r : Fin 50000) (j : Fin 128) :
    normArr a0 a1 a2 a3 a4 (ix2 r j)
      = max ((((a0 (ix2 r j) - a1 (ix2 0 j)) * Ideal.rsqrt (a2 (ix2 0 j) + Cert.Spec.eps)) * a3 (ix2 0 j)) + a4 (ix2 0 j)) 0 :=
  rfl

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem out1_5_at (x0 : Vec Ideal S5000x128 .f32) (x1 x2 x3 x4 : Vec Ideal S1x128 .f32) (k : S5000x128.Idx) :
    out1_5 (F := Ideal) x0 x1 x2 x3 x4 k
      = max ((((x0 k - x1 (ix2 0 (k 1))) * Ideal.rsqrt (x2 (ix2 0 (k 1)) + Cert.Spec.eps)) * x3 (ix2 0 (k 1)))
          + x4 (ix2 0 (k 1))) 0 := by
  obtain ⟨p, q, rfl⟩ : ∃ (p : Fin 5000) (q : Fin 128), k = ix2 p q := ⟨k 0, k 1, eq_ix2 k⟩
  exact out1_5_apply x0 x1 x2 x3 x4 p q

theorem out1_5_eq_normArr (x0 : Vec Ideal S5000x128 .f32) (x1 x2 x3 x4 : Vec Ideal S1x128 .f32)
    (a0 : S50000x128.Idx → EReal) (a1 a2 a3 a4 : S1x128.Idx → EReal) (k : S5000x128.Idx) (i : S50000x128.Idx)
    (h0 : x0 k = a0 i) (hq : (k 1).val = (i 1).val)
    (h1 : x1 = a1) (h2 : x2 = a2) (h3 : x3 = a3) (h4 : x4 = a4) :
    out1_5 (F := Ideal) x0 x1 x2 x3 x4 k = normArr a0 a1 a2 a3 a4 i := by
  have hq' : (k 1 : Fin 128) = (i 1 : Fin 128) := Fin.ext hq
  rw [out1_5_at, h0, h1, h2, h3, h4, hq']
  rfl

theorem iblk1_0_apply (c : Dev nD) (t : Fin cfg1.N) (x : S5000x128.Idx) (k : S50000x128.Idx)
    (hk0 : (k 0).val = 5000 * t.val + (x 0).val) (hk1 : (k 1).val = (x 1).val) :
    (iblk1 (F := Ideal) V c 0 t : Vec Ideal S5000x128 .f32) x = (V c main_v26_0 : S50000x128.Idx → EReal) k := by
  obtain ⟨e0, e1, -⟩ := idx_facts1 t
  unfold iblk1
  rw [View.read_apply]
  show V c main_v26_0 _ = V c main_v26_0 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

theorem iblk1_1_apply (c : Dev nD) (t : Fin cfg1.N) (x : S1x128.Idx) :
    (iblk1 (F := Ideal) V c 1 t : Vec Ideal S1x128 .f32) x = (V c main_v28 : S1x128.Idx → EReal) x := by
  obtain ⟨-, -, e0, e1, -⟩ := idx_facts1 t
  unfold iblk1
  rw [View.read_apply]
  show V c main_v28 _ = V c main_v28 _
  congr 1
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

theorem iblk1_2_apply (c : Dev nD) (t : Fin cfg1.N) (x : S1x128.Idx) :
    (iblk1 (F := Ideal) V c 2 t : Vec Ideal S1x128 .f32) x = (V c main_v32 : S1x128.Idx → EReal) x := by
  obtain ⟨-, -, -, -, e0, e1, -⟩ := idx_facts1 t
  unfold iblk1
  rw [View.read_apply]
  show V c main_v32 _ = V c main_v32 _
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

theorem iblk1_3_apply (c : Dev nD) (t : Fin cfg1.N) (x : S1x128.Idx) :
    (iblk1 (F := Ideal) V c 3 t : Vec Ideal S1x128 .f32) x = (V c main_v33 : S1x128.Idx → EReal) x := by
  obtain ⟨-, -, -, -, -, -, e0, e1, -⟩ := idx_facts1 t
  unfold iblk1
  rw [View.read_apply]
  show V c main_v33 _ = V c main_v33 _
  congr 1
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

theorem iblk1_4_apply (c : Dev nD) (t : Fin cfg1.N) (x : S1x128.Idx) :
    (iblk1 (F := Ideal) V c 4 t : Vec Ideal S1x128 .f32) x = (V c main_v34 : S1x128.Idx → EReal) x := by
  obtain ⟨-, -, -, -, -, -, -, -, e0, e1, -⟩ := idx_facts1 t
  unfold iblk1
  rw [View.read_apply]
  show V c main_v34 _ = V c main_v34 _
  congr 1
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

theorem flushed1_5_eq (c : Dev nD) (t : Fin cfg1.N) :
    (dat1 (F := Ideal) V c).flushed 5 t = ((cfg1.win 5).blk t).view.read (Elt Ideal)
      (normArr (V c main_v26_0) (V c main_v28) (V c main_v32) (V c main_v33) (V c main_v34)) := by
  show (cfg1.win 5).cut (grid1.coords t) ((dat1 V c).after 5 t) = _
  rw [after1_5]
  obtain ⟨-, -, -, -, -, -, -, -, -, -, e0, e1⟩ := idx_facts1 t
  funext y
  show out1_5 (F := Ideal) (iblk1 V c 0 t) (iblk1 V c 1 t) (iblk1 V c 2 t) (iblk1 V c 3 t) (iblk1 V c 4 t)
      ((cfg1.win 5).xinj (grid1.coords t) y)
    = normArr (V c main_v26_0) (V c main_v28) (V c main_v32) (V c main_v33) (V c main_v34)
      (((cfg1.win 5).blk t).view.emb y)
  refine out1_5_eq_normArr _ _ _ _ _ _ _ _ _ _ _ _ ?_ ?_ (funext (iblk1_1_apply V c t)) (funext (iblk1_2_apply V c t))
    (funext (iblk1_3_apply V c t)) (funext (iblk1_4_apply V c t))
  · refine iblk1_0_apply V c t _ _ ?_ ?_
    · show win1_5.index t 0 * 5000 + 1 * (y 0).val = 5000 * t.val + (y 0).val
      rw [e0]; omega
    · show win1_5.index t 1 * 128 + 1 * (y 1).val = (y 1).val
      rw [e1]; omega
  · show (y 1).val = win1_5.index t 1 * 128 + 1 * (y 1).val
    rw [e1]; omega

theorem mem_blk1_5 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v35).slice (win1_5.rect t)).set ↔ _
  rw [View.set_slice_whole, Rect.mem_set_unit]
  exact Iff.rfl

theorem covered1_5 (i : S50000x128.Idx) :
    ∃ t : Fin cfg1.N, (cfg1.win 5).flush t = true ∧ i ∈ ((cfg1.win 5).blk t).view.set := by
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, -, -, e0, e1⟩ := idx_facts1 t
  refine ⟨t, flush1_5 t, ?_⟩
  rw [mem_blk1_5]
  intro a
  match a with
  | ⟨0, _⟩ =>
    show win1_5.index t 0 * 5000 ≤ (i 0).val ∧ (i 0).val < win1_5.index t 0 * 5000 + 5000
    rw [e0]; omega
  | ⟨1, _⟩ =>
    show win1_5.index t 1 * 128 ≤ (i 1).val ∧ (i 1).val < win1_5.index t 1 * 128 + 128
    rw [e1]; omega

theorem final1_5_arr (c : Dev nD) :
    (dat1 (F := Ideal) V c).arrAt 5 cfg1.N
      = normArr (V c main_v26_0) (V c main_v28) (V c main_v32) (V c main_v33) (V c main_v34) :=
  (dat1 (F := Ideal) V c).arrAt_eq_of_cover 5 _ (fun t _ => flushed1_5_eq V c t) covered1_5

theorem final1_5 (c : Dev nD) (r : Fin 50000) (j : Fin 128) :
    (dat1 (F := Ideal) V c).arrAt 5 cfg1.N (ix2 r j)
      = normArr (V c main_v26_0) (V c main_v28) (V c main_v32) (V c main_v33) (V c main_v34) (ix2 r j) :=
  congrFun (final1_5_arr V c) (ix2 r j)

theorem final1_5_of (c : Dev nD) (r : Fin 50000) (j : Fin 128)
    (a0 : S50000x128.Idx → EReal) (a1 a2 a3 a4 : S1x128.Idx → EReal)
    (h0 : V c main_v26_0 = a0) (h1 : V c main_v28 = a1) (h2 : V c main_v32 = a2)
    (h3 : V c main_v33 = a3) (h4 : V c main_v34 = a4) :
    (dat1 (F := Ideal) V c).arrAt 5 cfg1.N (ix2 r j)
      = max ((((a0 (ix2 r j) - a1 (ix2 0 j)) * Ideal.rsqrt (a2 (ix2 0 j) + Cert.Spec.eps)) * a3 (ix2 0 j)) + a4 (ix2 0 j)) 0 := by
  rw [final1_5 V c r j, h0, h1, h2, h3, h4, normArr_apply]

end Cert.KernelIdeal.Hand
end
-- ==== Proof.KiValue.lean ====
import proofs.«110525_j88974542504019_1_alg».proof.Proof.KiHost
import proofs.«110525_j88974542504019_1_alg».proof.Proof.KiR0Final5
import proofs.«110525_j88974542504019_1_alg».proof.Proof.KiR1Final
import proofs.«110525_j88974542504019_1_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg) (c : Dev nD)

abbrev aggIn : Cert.Spec.SN.Idx → EReal :=
  Cert.ReferenceIdeal.Read.val_main_v22 (F := Ideal) (m ((c.tc : Thread nD τ).loc main_arg0)) (m ((c.tc : Thread nD τ).loc main_arg1))
abbrev xIn : Cert.Spec.SN.Idx → EReal := m ((c.tc : Thread nD τ).loc main_arg0)
abbrev wlIn : Cert.Spec.SW.Idx → EReal := m ((c.tc : Thread nD τ).loc main_arg2)
abbrev blIn : Cert.Spec.SC.Idx → EReal := m ((c.tc : Thread nD τ).loc main_arg3)
abbrev wrIn : Cert.Spec.SW.Idx → EReal := m ((c.tc : Thread nD τ).loc main_arg4)
abbrev gIn : Cert.Spec.SC.Idx → EReal := m ((c.tc : Thread nD τ).loc main_arg5)
abbrev beIn : Cert.Spec.SC.Idx → EReal := m ((c.tc : Thread nD τ).loc main_arg6)

theorem feat_eq (r : Fin 50000) (j : Fin 128) :
    featK (V1 m ρ) c r j = Cert.Spec.preK (aggIn m c) (xIn m c) (wlIn m c) (wrIn m c) (blIn m c) r j := by
  unfold featK Cert.Spec.preK Cert.Spec.dotRow
  have hA : ∀ k : Fin 128, aggArr (V1 m ρ) c (ix2 r k) = aggIn m c (ix2 r k) := fun k => by
    show (V1 m ρ c main_v22 : S50000x128.Idx → EReal) (ix2 r k) = _
    rw [V1_v22]
  have hX : ∀ k : Fin 128, nodeArr (V1 m ρ) c (ix2 r k) = xIn m c (ix2 r k) := fun k => by
    show (V1 m ρ c main_arg0 : S50000x128.Idx → EReal) (ix2 r k) = _
    rw [V1_arg0]
  have hL : ∀ k : Fin 128, wlArr (V1 m ρ) c (ix2 k j) = wlIn m c (ix2 j k) := fun k => V1_v23 m ρ c k j
  have hR : ∀ k : Fin 128, wrArr (V1 m ρ) c (ix2 k j) = wrIn m c (ix2 j k) := fun k => V1_v24 m ρ c k j
  have hB : biasArr (V1 m ρ) c (ix2 0 j) = blIn m c (ix1 j) := V1_v25 m ρ c j
  simp only [hA, hX, hL, hR, hB]

theorem V2_h (r : Fin 50000) (j : Fin 128) :
    (V2 m ρ c main_v26_0 : S50000x128.Idx → EReal) (ix2 r j) = featK (V1 m ρ) c r j := by
  show (W2 m ρ c (Proc.devRef .tc (Pipeline.arrRef spec0 5)) : S50000x128.Idx → EReal) (ix2 r j) = _
  rw [W2_arr m ρ c 5]
  exact final0_5 (V1 m ρ) c r j

/-- The kernel program's result at `(r, j)` is `layerK` of the same, given that region 0 leaves the column sums of the
    feature and of its square over all rows. -/
theorem result_at
    (h6 : ∀ j : Fin 128, (dat0 (F := Ideal) (V1 m ρ) c).arrAt 6 cfg0.N (ix2 0 j) = ∑ r : Fin 50000, featK (V1 m ρ) c r j)
    (h7 : ∀ j : Fin 128, (dat0 (F := Ideal) (V1 m ρ) c).arrAt 7 cfg0.N (ix2 0 j) = ∑ r : Fin 50000, featK (V1 m ρ) c r j * featK (V1 m ρ) c r j)
    (r : Fin 50000) (j : Fin 128) :
    (W4 m ρ c (Proc.devRef .tc main_v35) : S50000x128.Idx → EReal) (ix2 r j)
      = Cert.Spec.layerK (aggIn m c) (xIn m c) (wlIn m c) (wrIn m c) (blIn m c) (gIn m c) (beIn m c) r j := by
  have s1 : ∀ j : Fin 128, (V2 m ρ c main_v26_1 : S1x128.Idx → EReal) (ix2 0 j) = ∑ r : Fin 50000, featK (V1 m ρ) c r j := fun j => by
    show (W2 m ρ c (Proc.devRef .tc (Pipeline.arrRef spec0 6)) : S1x128.Idx → EReal) (ix2 0 j) = _
    rw [W2_arr m ρ c 6]; exact h6 j
  have s2 : ∀ j : Fin 128, (V2 m ρ c main_v26_2 : S1x128.Idx → EReal) (ix2 0 j) = ∑ r : Fin 50000, featK (V1 m ρ) c r j * featK (V1 m ρ) c r j := fun j => by
    show (W2 m ρ c (Proc.devRef .tc (Pipeline.arrRef spec0 7)) : S1x128.Idx → EReal) (ix2 0 j) = _
    rw [W2_arr m ρ c 7]; exact h7 j
  have h5 : (W4 m ρ c (Proc.devRef .tc main_v35) : S50000x128.Idx → EReal) = (dat1 (F := Ideal) (V3 m ρ) c).arrAt 5 cfg1.N :=
    W4_arr m ρ c 5
  rw [h5, final1_5_of (V3 m ρ) c r j (V3 m ρ c main_v26_0) (V3 m ρ c main_v28) (V3 m ρ c main_v32) (V3 m ρ c main_v33) (V3 m ρ c main_v34) rfl rfl rfl rfl rfl]
  rw [V3_v28, V3_v32, V3_v33, V3_v34, V3_v26_0, V2_h, s1, s2]
  simp only [feat_eq]
  unfold Cert.Spec.layerK Cert.Spec.normRelu Cert.Spec.varK Cert.Spec.mean
  with_reducible rfl

end Cert.KernelIdeal.Hand

end
-- ==== Proof.KiR0Accum.lean ====
import proofs.«110525_j88974542504019_1_alg».proof.Proof.KiR0Value
import proofs.«110525_j88974542504019_1_alg».proof.Proof.KiR0Final5
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

def featN (c : Dev nD) (r : ℕ) (j : Fin 128) : EReal := if h : r < 50000 then featK V c ⟨r, h⟩ j else 0

abbrev blk0 (c : Dev nD) (t : Fin cfg0.N) : Vec Ideal S5000x128 .f32 := iblk0 V c 0 t
abbrev blk1 (c : Dev nD) (t : Fin cfg0.N) : Vec Ideal S5000x128 .f32 := iblk0 V c 1 t
abbrev blk2 (c : Dev nD) (t : Fin cfg0.N) : Vec Ideal S128x128 .f32 := iblk0 V c 2 t
abbrev blk3 (c : Dev nD) (t : Fin cfg0.N) : Vec Ideal S128x128 .f32 := iblk0 V c 3 t
abbrev blk4 (c : Dev nD) (t : Fin cfg0.N) : Vec Ideal S1x128 .f32 := iblk0 V c 4 t

abbrev hblk (c : Dev nD) (t : Fin cfg0.N) (p : Fin 5000) (q : Fin 128) : EReal :=
  k0_pay4 (F := Ideal) (blk0 V c t) (blk1 V c t) (blk2 V c t) (blk3 V c t) (blk4 V c t) (ix2 p q)

theorem blockSum (c : Dev nD) (n : ℕ) (hn : n < cfg0.N) (q : Fin 128) :
    ∑ p : Fin 5000, hblk V c (⟨n, hn⟩ : Fin cfg0.N) p q = ∑ i ∈ Finset.range 5000, featN V c (5000 * n + i) q := by
  rw [Finset.sum_range]
  refine Finset.sum_congr rfl fun p _ => ?_
  refine (pay4_blk V c (⟨n, hn⟩ : Fin cfg0.N) p q).trans ?_
  unfold featN
  rw [dif_pos (show 5000 * n + p.val < 50000 from by have : cfg0.N = 10 := N_0; have := p.isLt; omega)]

theorem blockSumSq (c : Dev nD) (n : ℕ) (hn : n < cfg0.N) (q : Fin 128) :
    ∑ p : Fin 5000, hblk V c (⟨n, hn⟩ : Fin cfg0.N) p q * hblk V c (⟨n, hn⟩ : Fin cfg0.N) p q
      = ∑ i ∈ Finset.range 5000, featN V c (5000 * n + i) q * featN V c (5000 * n + i) q := by
  rw [Finset.sum_range]
  refine Finset.sum_congr rfl fun p _ => ?_
  have e : hblk V c (⟨n, hn⟩ : Fin cfg0.N) p q = featN V c (5000 * n + p.val) q := by
    refine (pay4_blk V c (⟨n, hn⟩ : Fin cfg0.N) p q).trans ?_
    unfold featN
    rw [dif_pos (show 5000 * n + p.val < 50000 from by have : cfg0.N = 10 := N_0; have := p.isLt; omega)]
  rw [e]

/-! ## One point's update of the two accumulators -/

/-- The two accumulators as the point before `t` left them. -/
abbrev acc0Before (c : Dev nD) (t : Fin cfg0.N) : Vec Ideal S1x128 .f32 :=
  (outsAt0 V c (t.val - 1) (Nat.lt_of_le_of_lt (Nat.sub_le _ _) t.isLt)).2.2.2.1
abbrev acc1Before (c : Dev nD) (t : Fin cfg0.N) : Vec Ideal S1x128 .f32 :=
  (outsAt0 V c (t.val - 1) (Nat.lt_of_le_of_lt (Nat.sub_le _ _) t.isLt)).2.2.2.2

/-- At the first point the column-sum accumulator is reset and then holds the block's column sum. -/
theorem acc0_first (c : Dev nD) (t : Fin cfg0.N) (h0 : t.val % 10 = 0) (q : Fin 128) :
    (outsAt0 V c t.val t.isLt).2.2.2.1 (ix2 0 q) = ∑ p : Fin 5000, hblk V c t p q := by
  rw [outsAt0_A V c t h0 (by omega)]
  refine (congrFun (sout0_A_0_eq (F := Ideal) c (grid0.coords t) (argsAt t) (blk0 V c t) (blk1 V c t) (blk2 V c t) (blk3 V c t) (blk4 V c t) _ _) (ix2 0 q)).trans ?_
  refine (pay5_apply (blk0 V c t) (blk1 V c t) (blk2 V c t) (blk3 V c t) (blk4 V c t) (k0_pay2 (F := Ideal)) q).trans ?_
  rw [pay2_apply q, zero_add]

/-- Likewise the sum-of-squares accumulator. -/
theorem acc1_first (c : Dev nD) (t : Fin cfg0.N) (h0 : t.val % 10 = 0) (q : Fin 128) :
    (outsAt0 V c t.val t.isLt).2.2.2.2 (ix2 0 q) = ∑ p : Fin 5000, hblk V c t p q * hblk V c t p q := by
  rw [outsAt0_A V c t h0 (by omega)]
  refine (congrFun (sout0_A_1_eq (F := Ideal) c (grid0.coords t) (argsAt t) (blk0 V c t) (blk1 V c t) (blk2 V c t) (blk3 V c t) (blk4 V c t) _ _) (ix2 0 q)).trans ?_
  refine (pay1_apply (k0_pay3 (F := Ideal)) (k0_pay6 (F := Ideal) (blk0 V c t) (blk1 V c t) (blk2 V c t) (blk3 V c t) (blk4 V c t)) q).trans ?_
  rw [pay3_apply q, zero_add]
  exact pay6_apply (blk0 V c t) (blk1 V c t) (blk2 V c t) (blk3 V c t) (blk4 V c t) q

/-- At every later point, the last included, the column-sum accumulator gains the block's column sum. -/
theorem acc0_next (c : Dev nD) (t : Fin cfg0.N) (h0 : ¬t.val % 10 = 0) (q : Fin 128) :
    (outsAt0 V c t.val t.isLt).2.2.2.1 (ix2 0 q) = acc0Before V c t (ix2 0 q) + ∑ p : Fin 5000, hblk V c t p q := by
  refine Eq.trans ?_ (pay5_apply (blk0 V c t) (blk1 V c t) (blk2 V c t) (blk3 V c t) (blk4 V c t) (acc0Before V c t) q)
  by_cases h1 : t.val % 10 = 9
  · rw [outsAt0_C V c t h0 h1]
    exact congrFun (sout0_C_0_eq (F := Ideal) c (grid0.coords t) (argsAt t) (blk0 V c t) (blk1 V c t) (blk2 V c t) (blk3 V c t) (blk4 V c t) _ _ _ _) (ix2 0 q)
  · rw [outsAt0_B V c t h0 h1]
    exact congrFun (sout0_B_0_eq (F := Ideal) c (grid0.coords t) (argsAt t) (blk0 V c t) (blk1 V c t) (blk2 V c t) (blk3 V c t) (blk4 V c t) _ _ _ _) (ix2 0 q)

/-- Likewise the sum-of-squares accumulator gains the block's column sum of squares. -/
theorem acc1_next (c : Dev nD) (t : Fin cfg0.N) (h0 : ¬t.val % 10 = 0) (q : Fin 128) :
    (outsAt0 V c t.val t.isLt).2.2.2.2 (ix2 0 q)
      = acc1Before V c t (ix2 0 q) + ∑ p : Fin 5000, hblk V c t p q * hblk V c t p q := by
  refine Eq.trans ?_ ((pay1_apply (acc1Before V c t) (k0_pay6 (F := Ideal) (blk0 V c t) (blk1 V c t) (blk2 V c t) (blk3 V c t) (blk4 V c t)) q).trans
    (congrArg (acc1Before V c t (ix2 0 q) + ·) (pay6_apply (blk0 V c t) (blk1 V c t) (blk2 V c t) (blk3 V c t) (blk4 V c t) q)))
  by_cases h1 : t.val % 10 = 9
  · rw [outsAt0_C V c t h0 h1]
    exact congrFun (sout0_C_1_eq (F := Ideal) c (grid0.coords t) (argsAt t) (blk0 V c t) (blk1 V c t) (blk2 V c t) (blk3 V c t) (blk4 V c t) _ _ _ _) (ix2 0 q)
  · rw [outsAt0_B V c t h0 h1]
    exact congrFun (sout0_B_1_eq (F := Ideal) c (grid0.coords t) (argsAt t) (blk0 V c t) (blk1 V c t) (blk2 V c t) (blk3 V c t) (blk4 V c t) _ _ _ _) (ix2 0 q)

/-- At the last point windows 6 and 7's buffers are stored with the two accumulators as just updated. -/
theorem out6_C (c : Dev nD) (t : Fin cfg0.N) (h0 : ¬t.val % 10 = 0) (h1 : t.val % 10 = 9) :
    (outsAt0 V c t.val t.isLt).2.1 = (outsAt0 V c t.val t.isLt).2.2.2.1 := by
  rw [outsAt0_C V c t h0 h1]
  exact (out0_C_6_eq (F := Ideal) c (grid0.coords t) (argsAt t) (blk0 V c t) (blk1 V c t) (blk2 V c t) (blk3 V c t) (blk4 V c t) _ _ _ _).trans (sout0_C_0_eq (F := Ideal) c (grid0.coords t) (argsAt t) (blk0 V c t) (blk1 V c t) (blk2 V c t) (blk3 V c t) (blk4 V c t) _ _ _ _).symm

theorem out7_C (c : Dev nD) (t : Fin cfg0.N) (h0 : ¬t.val % 10 = 0) (h1 : t.val % 10 = 9) :
    (outsAt0 V c t.val t.isLt).2.2.1 = (outsAt0 V c t.val t.isLt).2.2.2.2 := by
  rw [outsAt0_C V c t h0 h1]
  exact (out0_C_7_eq (F := Ideal) c (grid0.coords t) (argsAt t) (blk0 V c t) (blk1 V c t) (blk2 V c t) (blk3 V c t) (blk4 V c t) _ _ _ _).trans (sout0_C_1_eq (F := Ideal) c (grid0.coords t) (argsAt t) (blk0 V c t) (blk1 V c t) (blk2 V c t) (blk3 V c t) (blk4 V c t) _ _ _ _).symm

/-- After point n the accumulators hold the sums over the first 5000 (n + 1) rows. -/
theorem acc_inv (c : Dev nD) : ∀ (n : ℕ) (hn : n < cfg0.N) (q : Fin 128),
    (outsAt0 V c n hn).2.2.2.1 (ix2 0 q) = ∑ r ∈ Finset.range (5000 * (n + 1)), featN V c r q
    ∧ (outsAt0 V c n hn).2.2.2.2 (ix2 0 q) = ∑ r ∈ Finset.range (5000 * (n + 1)), featN V c r q * featN V c r q
  | 0, hn, q => by
    constructor
    · refine (acc0_first V c ⟨0, hn⟩ (Nat.zero_mod _) q).trans ?_
      rw [blockSum V c 0 hn q]
      try simp only [Nat.mul_zero, Nat.zero_add, Nat.mul_one]
    · refine (acc1_first V c ⟨0, hn⟩ (Nat.zero_mod _) q).trans ?_
      rw [blockSumSq V c 0 hn q]
      try simp only [Nat.mul_zero, Nat.zero_add, Nat.mul_one]
  | n + 1, hn, q => by
    have hN : cfg0.N = 10 := N_0
    obtain ⟨ih0, ih1⟩ := acc_inv c n (Nat.lt_of_succ_lt hn) q
    have hB0 : ¬(n + 1) % 10 = 0 := by omega
    have hsplit : 5000 * (n + 1 + 1) = 5000 * (n + 1) + 5000 := by omega
    rw [hsplit, Finset.sum_range_add, Finset.sum_range_add]
    constructor
    · refine (acc0_next V c ⟨n + 1, hn⟩ hB0 q).trans ?_
      rw [blockSum V c (n + 1) hn q]
      exact congrArg (· + _) ih0
    · refine (acc1_next V c ⟨n + 1, hn⟩ hB0 q).trans ?_
      rw [blockSumSq V c (n + 1) hn q]
      exact congrArg (· + _) ih1

theorem sum_featN (c : Dev nD) (j : Fin 128) :
    ∑ r ∈ Finset.range 50000, featN V c r j = ∑ r : Fin 50000, featK V c r j := by
  rw [Finset.sum_range]
  refine Finset.sum_congr rfl fun r _ => ?_
  unfold featN
  rw [dif_pos r.isLt]

theorem sum_featN_sq (c : Dev nD) (j : Fin 128) :
    ∑ r ∈ Finset.range 50000, featN V c r j * featN V c r j = ∑ r : Fin 50000, featK V c r j * featK V c r j := by
  rw [Finset.sum_range]
  refine Finset.sum_congr rfl fun r _ => ?_
  unfold featN
  rw [dif_pos r.isLt]

theorem lt9 : 9 < cfg0.N := by have : cfg0.N = 10 := N_0; omega

abbrev result6 (c : Dev nD) : Buf (Elt Ideal) ((c : Thread nD τ).loc main_v26_1) := (outsAt0 V c 9 lt9).2.1
abbrev result7 (c : Dev nD) : Buf (Elt Ideal) ((c : Thread nD τ).loc main_v26_2) := (outsAt0 V c 9 lt9).2.2.1

theorem flushed6_eq (c : Dev nD) (t : Fin cfg0.N) (hf : (cfg0.win 6).flush t = true) :
    (dat0 V c).flushed 6 t = ((cfg0.win 6).blk t).view.read (Elt Ideal) (result6 V c) := by
  have hN : cfg0.N = 10 := N_0
  have h9 : t.val = 9 := by have := (flush0_6 t).mp hf; have := t.isLt; omega
  obtain rfl : t = t0_9 := Fin.ext h9
  show (cfg0.win 6).cut (grid0.coords t0_9) ((dat0 V c).after 6 t0_9) = _
  rw [after0_6]
  have hz' : (fun a => win0_6.index t0_9 a * main_v26_1.ty.shape.size a) = fun _ => 0 := funext fun a => by fin_cases a <;> decide
  exact (Memref.read_access_unit_zero (Elt Ideal) main_v26_1 hz' (fun a => by rw [congrFun hz' a]; simp) (result6 V c)).symm

theorem arr6_eq (c : Dev nD) : (dat0 V c).arrAt 6 cfg0.N = result6 V c :=
  (dat0 V c).arrAt_eq_of_cover 6 (result6 V c) (flushed6_eq V c) fun i =>
    ⟨t0_9, (flush0_6 t0_9).mpr rfl, by
      show i ∈ ((View.whole main_v26_1).slice (win0_6.rect t0_9)).set
      rw [View.set_slice_whole, Rect.mem_set_unit]
      intro a
      have hi0 : (i 0 : Nat) < 1 := (i 0).isLt
      have hi1 : (i 1 : Nat) < 128 := (i 1).isLt
      match a with
      | ⟨0, _⟩ => show win0_6.index t0_9 0 * win0_6.size 0 ≤ (i 0 : Nat) ∧ (i 0 : Nat) < win0_6.index t0_9 0 * win0_6.size 0 + win0_6.xsize (grid0.coords t0_9) 0
                  rw [show win0_6.index t0_9 0 * win0_6.size 0 = 0 from by decide +kernel, show win0_6.xsize (grid0.coords t0_9) 0 = 1 from by decide +kernel]; omega
      | ⟨1, _⟩ => show win0_6.index t0_9 1 * win0_6.size 1 ≤ (i 1 : Nat) ∧ (i 1 : Nat) < win0_6.index t0_9 1 * win0_6.size 1 + win0_6.xsize (grid0.coords t0_9) 1
                  rw [show win0_6.index t0_9 1 * win0_6.size 1 = 0 from by decide +kernel, show win0_6.xsize (grid0.coords t0_9) 1 = 128 from by decide +kernel]; omega⟩

theorem flushed7_eq (c : Dev nD) (t : Fin cfg0.N) (hf : (cfg0.win 7).flush t = true) :
    (dat0 V c).flushed 7 t = ((cfg0.win 7).blk t).view.read (Elt Ideal) (result7 V c) := by
  have hN : cfg0.N = 10 := N_0
  have h9 : t.val = 9 := by have := (flush0_7 t).mp hf; have := t.isLt; omega
  obtain rfl : t = t0_9 := Fin.ext h9
  show (cfg0.win 7).cut (grid0.coords t0_9) ((dat0 V c).after 7 t0_9) = _
  rw [after0_7]
  have hz' : (fun a => win0_7.index t0_9 a * main_v26_2.ty.shape.size a) = fun _ => 0 := funext fun a => by fin_cases a <;> decide
  exact (Memref.read_access_unit_zero (Elt Ideal) main_v26_2 hz' (fun a => by rw [congrFun hz' a]; simp) (result7 V c)).symm

theorem arr7_eq (c : Dev nD) : (dat0 V c).arrAt 7 cfg0.N = result7 V c :=
  (dat0 V c).arrAt_eq_of_cover 7 (result7 V c) (flushed7_eq V c) fun i =>
    ⟨t0_9, (flush0_7 t0_9).mpr rfl, by
      show i ∈ ((View.whole main_v26_2).slice (win0_7.rect t0_9)).set
      rw [View.set_slice_whole, Rect.mem_set_unit]
      intro a
      have hi0 : (i 0 : Nat) < 1 := (i 0).isLt
      have hi1 : (i 1 : Nat) < 128 := (i 1).isLt
      match a with
      | ⟨0, _⟩ => show win0_7.index t0_9 0 * win0_7.size 0 ≤ (i 0 : Nat) ∧ (i 0 : Nat) < win0_7.index t0_9 0 * win0_7.size 0 + win0_7.xsize (grid0.coords t0_9) 0
                  rw [show win0_7.index t0_9 0 * win0_7.size 0 = 0 from by decide +kernel, show win0_7.xsize (grid0.coords t0_9) 0 = 1 from by decide +kernel]; omega
      | ⟨1, _⟩ => show win0_7.index t0_9 1 * win0_7.size 1 ≤ (i 1 : Nat) ∧ (i 1 : Nat) < win0_7.index t0_9 1 * win0_7.size 1 + win0_7.xsize (grid0.coords t0_9) 1
                  rw [show win0_7.index t0_9 1 * win0_7.size 1 = 0 from by decide +kernel, show win0_7.xsize (grid0.coords t0_9) 1 = 128 from by decide +kernel]; omega⟩

theorem final0_6 (c : Dev nD) (j : Fin 128) :
    (dat0 (F := Ideal) V c).arrAt 6 cfg0.N (ix2 0 j) = ∑ r : Fin 50000, featK V c r j := by
  refine (congrFun (arr6_eq V c) (ix2 0 j)).trans ?_
  refine (congrFun (out6_C V c ⟨9, lt9⟩ (by decide) rfl) (ix2 0 j)).trans ?_
  refine ((acc_inv V c 9 lt9 j).1).trans ?_
  exact sum_featN V c j

theorem final0_7 (c : Dev nD) (j : Fin 128) :
    (dat0 (F := Ideal) V c).arrAt 7 cfg0.N (ix2 0 j) = ∑ r : Fin 50000, featK V c r j * featK V c r j := by
  refine (congrFun (arr7_eq V c) (ix2 0 j)).trans ?_
  refine (congrFun (out7_C V c ⟨9, lt9⟩ (by decide) rfl) (ix2 0 j)).trans ?_
  refine ((acc_inv V c 9 lt9 j).2).trans ?_
  exact sum_featN_sq V c j

end Cert.KernelIdeal.Hand

end
-- ==== Proof.RefValue.lean ====
import proofs.«110525_j88974542504019_1_alg».proof.Proof.RefRead
import proofs.«110525_j88974542504019_1_alg».proof.Proof.Spec
import Idealize.ShloMosaic.PureOps.Ideal.Laws

noncomputable section

namespace Cert.RefValue

open Cert.ReferenceIdeal Cert.ReferenceIdeal.Read Idealize.ShloMosaic Idealize.ShloMosaic.ValueIdx Cert.Spec
open scoped BigOperators

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S128, .f32⟩ : BufTy).Contents (Elt Ideal))

abbrev agg : SN.Idx → EReal := val_main_v22 (F := Ideal) x0 x1

theorem pre_apply (r : Fin 50000) (j : Fin 128) :
    val_main_v30 (F := Ideal) x0 x1 x2 x3 x4 (ix2 r j) = preR (agg x0 x1) x0 x2 x4 x3 r j := by
  have e1 : ∀ k : Fin 128, lidx_main_v24 (ix2 r j) k = ix2 r k := fun k =>
    funext fun a => Fin.ext (by match a with | ⟨0, _⟩ => rfl | ⟨1, _⟩ => rfl)
  have e2 : ∀ k : Fin 128, idx_main_v23 (ridx_main_v24 (ix2 r j) k) = ix2 j k := fun k =>
    funext fun a => Fin.ext (by match a with | ⟨0, _⟩ => rfl | ⟨1, _⟩ => rfl)
  have e3 : ∀ k : Fin 128, lidx_main_v29 (ix2 r j) k = ix2 r k := fun k =>
    funext fun a => Fin.ext (by match a with | ⟨0, _⟩ => rfl | ⟨1, _⟩ => rfl)
  have e4 : ∀ k : Fin 128, idx_main_v28 (ridx_main_v29 (ix2 r j) k) = ix2 j k := fun k =>
    funext fun a => Fin.ext (by match a with | ⟨0, _⟩ => rfl | ⟨1, _⟩ => rfl)
  have e5 : idx_main_v25 (idx_main_v26 (ix2 r j)) = ix1 j :=
    funext fun a => Fin.ext (by match a with | ⟨0, _⟩ => rfl)
  rw [val_main_v30_apply, val_main_v27_apply, val_main_v24_apply, val_main_v29_apply, val_main_v26_apply,
    val_main_v25_apply]
  simp only [val_main_v23_apply, val_main_v28_apply, e1, e2, e3, e4, e5, Ideal.addf_def]
  rfl

theorem mean_apply (j : Fin 128) :
    val_main_v33 (F := Ideal) x0 x1 x2 x3 x4 (ix1 j) = mean (preR (agg x0 x1) x0 x2 x4 x3) j := by
  have e1 : ∀ k : Fin 50000, idx_main_v31 (ix1 j) k = ix2 k j := fun k =>
    funext fun a => Fin.ext (by match a with | ⟨0, _⟩ => rfl | ⟨1, _⟩ => rfl)
  rw [val_main_v33_apply, val_main_v31_apply, val_main_v32_apply, val_main_cst_4_apply, val_main_cst_5_apply]
  simp only [e1, pre_apply, Ideal.hostDivf_def, Ideal.ofBits_def, Ideal.ofBits_zero_f32, zero_add]
  unfold mean cnt
  with_reducible rfl

theorem mean_bcast_apply (r : Fin 50000) (j : Fin 128) :
    val_main_v35 (F := Ideal) x0 x1 x2 x3 x4 (ix2 r j) = mean (preR (agg x0 x1) x0 x2 x4 x3) j := by
  have e1 : idx_main_v34 (idx_main_v35 (ix2 r j)) = ix1 j :=
    funext fun a => Fin.ext (by match a with | ⟨0, _⟩ => rfl)
  rw [val_main_v35_apply, val_main_v34_apply, e1, mean_apply]

theorem mean_bcast_apply' (r : Fin 50000) (j : Fin 128) :
    val_main_v42 (F := Ideal) x0 x1 x2 x3 x4 (ix2 r j) = mean (preR (agg x0 x1) x0 x2 x4 x3) j := by
  have e1 : idx_main_v41 (idx_main_v42 (ix2 r j)) = ix1 j :=
    funext fun a => Fin.ext (by match a with | ⟨0, _⟩ => rfl)
  rw [val_main_v42_apply, val_main_v41_apply, e1, mean_apply]

theorem dev_apply (r : Fin 50000) (j : Fin 128) :
    val_main_v37 (F := Ideal) x0 x1 x2 x3 x4 (ix2 r j)
      = (preR (agg x0 x1) x0 x2 x4 x3 r j - mean (preR (agg x0 x1) x0 x2 x4 x3) j)
        * (preR (agg x0 x1) x0 x2 x4 x3 r j - mean (preR (agg x0 x1) x0 x2 x4 x3) j) := by
  rw [val_main_v37_apply, val_main_v36_apply, pre_apply, mean_bcast_apply, Ideal.mulf_def, Ideal.subf_def]

theorem var_apply (j : Fin 128) :
    val_main_v40 (F := Ideal) x0 x1 x2 x3 x4 (ix1 j) = varR (preR (agg x0 x1) x0 x2 x4 x3) j := by
  have e1 : ∀ k : Fin 50000, idx_main_v38 (ix1 j) k = ix2 k j := fun k =>
    funext fun a => Fin.ext (by match a with | ⟨0, _⟩ => rfl | ⟨1, _⟩ => rfl)
  have hs : (∑ k : Fin 50000, val_main_v37 (F := Ideal) x0 x1 x2 x3 x4 (idx_main_v38 (ix1 j) k))
      = ∑ k : Fin 50000, (preR (agg x0 x1) x0 x2 x4 x3 k j - mean (preR (agg x0 x1) x0 x2 x4 x3) j)
          * (preR (agg x0 x1) x0 x2 x4 x3 k j - mean (preR (agg x0 x1) x0 x2 x4 x3) j) :=
    Finset.sum_congr (Eq.refl _) (fun k _ => by rw [e1 k]; exact dev_apply x0 x1 x2 x3 x4 k j)
  rw [val_main_v40_apply, val_main_v38_apply, val_main_v39_apply, val_main_cst_6_apply, val_main_cst_7_apply, hs,
    Ideal.hostDivf_def, Ideal.ofBits_def, Ideal.ofBits_def, Ideal.ofBits_zero_f32, zero_add]
  unfold varR cnt
  with_reducible rfl

/-- The reference's result at `(r, j)` is `layerR` of the mean aggregate and the arguments. -/
theorem result_apply (r : Fin 50000) (j : Fin 128) :
    val_main_v56 (F := Ideal) x0 x1 x2 x3 x4 x5 x6 (ix2 r j) = layerR (agg x0 x1) x0 x2 x4 x3 x5 x6 r j := by
  have e1 : idx_main_v47 (idx_main_v48 (ix2 r j)) = ix1 j :=
    funext fun a => Fin.ext (by match a with | ⟨0, _⟩ => rfl)
  have e2 : idx_main_v50 (idx_main_v51 (ix2 r j)) = ix1 j :=
    funext fun a => Fin.ext (by match a with | ⟨0, _⟩ => rfl)
  have e3 : idx_main_v53 (idx_main_v54 (ix2 r j)) = ix1 j :=
    funext fun a => Fin.ext (by match a with | ⟨0, _⟩ => rfl)
  rw [val_main_v56_apply, val_main_v55_apply, val_main_v52_apply, val_main_v49_apply, val_main_v43_apply,
    val_main_v48_apply, val_main_v47_apply, val_main_v46_apply, val_main_v45_apply, val_main_v44_apply,
    val_main_cst_8_apply, val_main_v51_apply, val_main_v50_apply, val_main_v54_apply, val_main_v53_apply,
    val_main_call0_v0_apply, val_main_call0_cst_apply, e1, e2, e3, var_apply, pre_apply, mean_bcast_apply']
  simp only [Ideal.maximumf_def, Ideal.addf_def, Ideal.mulf_def, Ideal.subf_def, Ideal.hostUnary_rsqrt_def, Ideal.ofBits_def,
    Ideal.ofBits_zero_f32]
  unfold layerR normRelu eps
  with_reducible rfl

end Cert.RefValue

end
-- ==== Proof.Bridge.lean ====
import proofs.«110525_j88974542504019_1_alg».proof.Proof.Spec
import Mathlib.Data.EReal.Basic
import Mathlib.Data.EReal.Operations
import Mathlib.Algebra.BigOperators.Fin
import Mathlib.Tactic.Ring
import Mathlib.Tactic.FieldSimp
import Mathlib.Tactic.NormNum

noncomputable section

namespace Cert.Spec

open Idealize.ShloMosaic Idealize.ShloMosaic.ValueIdx
open scoped BigOperators

theorem cnt_eq : cnt = ((50000 : ℝ) : EReal) := by
  simp [cnt, Ideal.ofBits, Ideal.ieee, -EReal.coe_mul]; norm_num

theorem div_cnt_coe (s : ℝ) : Ideal.div (s : EReal) cnt = ((s / 50000 : ℝ) : EReal) := by
  rw [cnt_eq, Ideal.div_coe (by norm_num : (50000 : ℝ) ≠ 0), ← EReal.coe_mul]
  congr 1
  ring

theorem preK_eq_preR (a x : SN.Idx → EReal) (wl wr : SW.Idx → EReal) (b : SC.Idx → EReal) :
    preK a x wl wr b = preR a x wl wr b := by
  funext r j
  simp only [preK, preR]
  exact add_right_comm _ _ _

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem pre_real (a x : SN.Idx → EReal) (wl wr : SW.Idx → EReal) (b : SC.Idx → EReal)
    (ha : ∀ i, ∃ r : ℝ, a i = (r : EReal)) (hx : ∀ i, ∃ r : ℝ, x i = (r : EReal))
    (hwl : ∀ i, ∃ r : ℝ, wl i = (r : EReal)) (hwr : ∀ i, ∃ r : ℝ, wr i = (r : EReal))
    (hb : ∀ i, ∃ r : ℝ, b i = (r : EReal)) :
    ∃ H : Fin 50000 → Fin 128 → ℝ, ∀ r j, preK a x wl wr b r j = ((H r j : ℝ) : EReal) := by
  choose ra hra using ha
  choose rx hrx using hx
  choose rwl hrwl using hwl
  choose rwr hrwr using hwr
  choose rb hrb using hb
  refine ⟨fun r j => (∑ k : Fin 128, ra (ix2 r k) * rwl (ix2 j k)
      + ∑ k : Fin 128, rx (ix2 r k) * rwr (ix2 j k)) + rb (ix1 j), fun r j => ?_⟩
  simp only [preK, dotRow, hra, hrx, hrwl, hrwr, hrb, ← EReal.coe_mul, coe_sum, ← EReal.coe_add]

/-- Over the reals, with `n` the number of terms: the mean of the squares minus the squared mean is the mean squared
    deviation. -/
theorem var_identity {ι : Type*} (s : Finset ι) (f : ι → ℝ) (n : ℝ) (hn : n ≠ 0)
    (hc : (s.card : ℝ) = n) :
    (∑ i ∈ s, f i * f i) / n - (∑ i ∈ s, f i) / n * ((∑ i ∈ s, f i) / n)
      = (∑ i ∈ s, (f i - (∑ i ∈ s, f i) / n) * (f i - (∑ i ∈ s, f i) / n)) / n := by
  obtain ⟨m, hm⟩ : ∃ m, m = (∑ i ∈ s, f i) / n := ⟨_, rfl⟩
  have hS : ∑ i ∈ s, f i = n * m := by rw [hm]; field_simp
  rw [← hm]
  have h1 : ∀ i, (f i - m) * (f i - m) = f i * f i - (2 * m) * f i + m * m := fun i => by ring
  simp only [h1, Finset.sum_add_distrib, Finset.sum_sub_distrib, ← Finset.mul_sum,
    Finset.sum_const, nsmul_eq_mul, hc, hS]
  field_simp
  ring

theorem mean_coe (H : Fin 50000 → Fin 128 → ℝ) (j : Fin 128) :
    mean (fun r j => ((H r j : ℝ) : EReal)) j = (((∑ r : Fin 50000, H r j) / 50000 : ℝ) : EReal) := by
  simp only [mean]
  rw [coe_sum, div_cnt_coe]

theorem varK_eq_varR (H : Fin 50000 → Fin 128 → ℝ) :
    varK (fun r j => ((H r j : ℝ) : EReal)) = varR (fun r j => ((H r j : ℝ) : EReal)) := by
  funext j
  simp only [varK, varR, mean_coe, ← EReal.coe_mul, ← EReal.coe_sub, coe_sum, div_cnt_coe]
  rw [EReal.coe_eq_coe_iff]
  exact var_identity Finset.univ (fun r => H r j) 50000 (by norm_num)
    (by rw [Finset.card_univ, Fintype.card_fin]; norm_num)

/-- Where every entry is real the feature is real, so the two forms of the variance, hence of the layer, agree. -/
theorem layerK_eq_layerR (a x : SN.Idx → EReal) (wl wr : SW.Idx → EReal) (b g be : SC.Idx → EReal)
    (ha : ∀ i, ∃ r : ℝ, a i = (r : EReal)) (hx : ∀ i, ∃ r : ℝ, x i = (r : EReal))
    (hwl : ∀ i, ∃ r : ℝ, wl i = (r : EReal)) (hwr : ∀ i, ∃ r : ℝ, wr i = (r : EReal))
    (hb : ∀ i, ∃ r : ℝ, b i = (r : EReal)) :
    layerK a x wl wr b g be = layerR a x wl wr b g be := by
  obtain ⟨H, hH⟩ := pre_real a x wl wr b ha hx hwl hwr hb
  have hK : preK a x wl wr b = fun r j => ((H r j : ℝ) : EReal) := by
    funext r j; exact hH r j
  funext r j
  simp only [layerK, layerR, ← preK_eq_preR]
  rw [hK, varK_eq_varR]

end Cert.Spec

end
-- ==== Proof.LibGatherScatter.lean ====
import Idealize.ShloMosaic.PureOps.Ideal
import Idealize.ShloMosaic.Lib.ValueIdx
import Idealize.ShloMosaic.Lib.StableHlo.Predicate
import Mathlib.Algebra.BigOperators.Group.Finset.Basic

noncomputable section

namespace Cert.LibGatherScatter

open Idealize.ShloMosaic Idealize.ShloMosaic.ValueIdx
open scoped BigOperators

/-- The signed value of a 32-bit word clamped into `[0, N - 1]`. -/
def clampIdx (N : Nat) (hN : 0 < N) (v : BitVec 32) : Fin N := ⟨min v.toInt.toNat (N - 1), by omega⟩

/-- A gather of whole rows of `[N, C]` at a column of start indices reads, at `(e, f)`, the operand at the clamped
    start index `e`, column `f`. -/
theorem gather2_apply {α : Type} {N E C : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ 32) (e : Fin E) (f : Fin C) :
    Host.gather d x idx (ix2 e f) = x (ix2 (clampIdx N hN (idx (ix2 e 0))) f) := by
  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext a
  apply Fin.ext
  match a with
  | ⟨0, _⟩ =>
    show GatherDims.start _ _ idx 0 + GatherDims.batchCoord _ _ 0 + GatherDims.offCoord _ _ 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    show GatherDims.start _ _ idx 1 + GatherDims.batchCoord _ _ 1 + GatherDims.offCoord _ _ 1 = f.val
    have h1 : (1 : Fin (⟨2, ![N, C]⟩ : Shape).rank) ∉ [(0 : Fin (⟨2, ![N, C]⟩ : Shape).rank)] :=
      (by decide : (1 : Fin 2) ∉ [(0 : Fin 2)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl

/-- An update lands at `i` exactly when, on every axis, its start plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hall
      have hfa := congrArg Fin.val (congrFun (Option.some.inj h) a)
      have h0 := (hall a).1
      simp only at hfa
      omega
    · exact absurd h (by simp)
  · intro h
    have hall : ∀ a, 0 ≤ d.start j idx a + (d.window j a : ℤ) ∧ d.start j idx a + (d.window j a : ℤ) < (s.size a : ℤ) := by
      intro a
      have h1 := h a
      have h2 := (i a).isLt
      constructor <;> omega
    rw [dif_pos hall]
    congr 1
    funext a
    apply Fin.ext
    show (d.start j idx a + (d.window j a : ℤ)).toNat = (i a).val
    have h1 := h a
    omega

section Rank1
variable {N E : Nat} (d : ScatterDims ⟨1, ![N]⟩ ⟨2, ![E, 1]⟩ ⟨1, ![E]⟩)
  (huw : d.updateWindowDims = []) (hiw : d.insertedWindowDims = [0])
  (hsd : d.scatterDimsToOperandDims = [0]) (hivd : d.indexVectorDim = 1)
include huw hiw hsd hivd

theorem start1 {w : Nat} (idx : IVec ⟨2, ![E, 1]⟩ w) (j : (⟨1, ![E]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

theorem window1 (j : (⟨1, ![E]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

theorem resultIdx1_eq_some_iff {w : Nat} (idx : IVec ⟨2, ![E, 1]⟩ w) (j : (⟨1, ![E]⟩ : Shape).Idx)
    (i : (⟨1, ![N]⟩ : Shape).Idx) :
    d.resultIdx? j idx = some i ↔ (idx (ix2 (j 0) 0)).toInt = ((i 0).val : ℤ) := by
  rw [resultIdx?_eq_some_iff]
  constructor
  · intro h
    have h0 := h 0
    rw [start1 d huw hiw hsd hivd, window1 d huw hiw hsd hivd] at h0
    simpa using h0
  · intro h a
    obtain rfl : a = 0 := Subsingleton.elim _ _
    rw [start1 d huw hiw hsd hivd, window1 d huw hiw hsd hivd]
    simpa using h

/-- The scatter-add read at `i`: the operand's element plus the updates whose index, read signed, is exactly `i`;
    an index outside the axis meets no `i`. -/
theorem scatterAdd1_apply {φ : FTy}
    (x : FVec Ideal ⟨1, ![N]⟩ φ) (idx : IVec ⟨2, ![E, 1]⟩ 32) (upd : FVec Ideal ⟨1, ![E]⟩ φ) (i : Fin N) :
    Host.scatterAdd (F := Ideal) d x idx upd (ix1 i)
      = x (ix1 i) + ∑ e ∈ Finset.univ.filter (fun e : Fin E => (idx (ix2 e 0)).toInt = (i.val : ℤ)), upd (ix1 e) := by
  show x (ix1 i) + ∑ j ∈ Finset.univ.filter (fun j => d.resultIdx? j idx = some (ix1 i)), upd j = _
  congr 1
  refine Finset.sum_nbij' (fun j => j 0) ix1 ?_ ?_ ?_ ?_ ?_
  · intro j hj
    exact Finset.mem_filter.mpr ⟨Finset.mem_univ _,
      (resultIdx1_eq_some_iff d huw hiw hsd hivd idx j (ix1 i)).mp (Finset.mem_filter.mp hj).2⟩
  · intro e he
    exact Finset.mem_filter.mpr ⟨Finset.mem_univ _,
      (resultIdx1_eq_some_iff d huw hiw hsd hivd idx (ix1 e) (ix1 i)).mpr (Finset.mem_filter.mp he).2⟩
  · intro j _
    exact (eq_ix1 j).symm
  · intro e _
    rfl
  · intro j _
    exact congrArg upd (eq_ix1 j)

end Rank1

section Rank2
variable {N E C : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hivd : d.indexVectorDim = 1)
include huw hiw hsd hivd

theorem start2_row {w : Nat} (idx : IVec ⟨2, ![E, 1]⟩ w) (j : (⟨2, ![E, C]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

theorem start2_col {w : Nat} (idx : IVec ⟨2, ![E, 1]⟩ w) (j : (⟨2, ![E, C]⟩ : Shape).Idx) :
    d.start j idx 1 = 0 := by
  obtain ⟨uw, iw, sd, iv, wf⟩ := d
  simp only at huw hiw hsd hivd
  subst huw hiw hsd hivd
  unfold ScatterDims.start
  rw [dif_neg (by decide : (1 : Fin 2) ∉ [(0 : Fin 2)])]

theorem window2_row (j : (⟨2, ![E, C]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

theorem window2_col (j : (⟨2, ![E, C]⟩ : Shape).Idx) : d.window j 1 = (j 1).val := by
  obtain ⟨uw, iw, sd, iv, wf⟩ := d
  simp only at huw hiw hsd hivd
  subst huw hiw hsd hivd
  unfold ScatterDims.window
  rw [dif_pos (by simp [ScatterDims.sKept, Shape.kept])]
  rfl

theorem resultIdx2_eq_some_iff {w : Nat} (idx : IVec ⟨2, ![E, 1]⟩ w) (j : (⟨2, ![E, C]⟩ : Shape).Idx)
    (i : (⟨2, ![N, C]⟩ : Shape).Idx) :
    d.resultIdx? j idx = some i ↔ (idx (ix2 (j 0) 0)).toInt = ((i 0).val : ℤ) ∧ (j 1).val = (i 1).val := by
  rw [resultIdx?_eq_some_iff]
  constructor
  · intro h
    have h0 := h 0
    have h1 := h 1
    rw [start2_row d huw hiw hsd hivd, window2_row d huw hiw hsd hivd] at h0
    rw [start2_col d huw hiw hsd hivd, window2_col d huw hiw hsd hivd] at h1
    refine ⟨by simpa using h0, ?_⟩
    have h1' : ((j 1).val : ℤ) = ((i 1).val : ℤ) := by simpa using h1
    exact_mod_cast h1'
  · rintro ⟨h0, h1⟩ a
    match a with
    | ⟨0, _⟩ =>
      show d.start j idx 0 + (d.window j 0 : ℤ) = ((i 0).val : ℤ)
      rw [start2_row d huw hiw hsd hivd, window2_row d huw hiw hsd hivd]
      simpa using h0
    | ⟨1, _⟩ =>
      show d.start j idx 1 + (d.window j 1 : ℤ) = ((i 1).val : ℤ)
      rw [start2_col d huw hiw hsd hivd, window2_col d huw hiw hsd hivd, h1]
      simp

/-- The same for whole rows: at `(i, f)`, the operand's element plus column `f` of the update rows indexed `i`. -/
theorem scatterAdd2_apply {φ : FTy}
    (x : FVec Ideal ⟨2, ![N, C]⟩ φ) (idx : IVec ⟨2, ![E, 1]⟩ 32) (upd : FVec Ideal ⟨2, ![E, C]⟩ φ) (i : Fin N) (f : Fin C) :
    Host.scatterAdd (F := Ideal) d x idx upd (ix2 i f)
      = x (ix2 i f) + ∑ e ∈ Finset.univ.filter (fun e : Fin E => (idx (ix2 e 0)).toInt = (i.val : ℤ)), upd (ix2 e f) := by
  show x (ix2 i f) + ∑ j ∈ Finset.univ.filter (fun j => d.resultIdx? j idx = some (ix2 i f)), upd j = _
  congr 1
  have hcol : ∀ j : (⟨2, ![E, C]⟩ : Shape).Idx, d.resultIdx? j idx = some (ix2 i f) → j = ix2 (j 0) f := fun j hj => by
    have h1 := ((resultIdx2_eq_some_iff d huw hiw hsd hivd idx j (ix2 i f)).mp hj).2
    have hf : j 1 = f := Fin.ext h1
    rw [← hf]
    exact eq_ix2 j
  refine Finset.sum_nbij' (fun j => j 0) (fun e => ix2 e f) ?_ ?_ ?_ ?_ ?_
  · intro j hj
    exact Finset.mem_filter.mpr ⟨Finset.mem_univ _,
      ((resultIdx2_eq_some_iff d huw hiw hsd hivd idx j (ix2 i f)).mp (Finset.mem_filter.mp hj).2).1⟩
  · intro e he
    exact Finset.mem_filter.mpr ⟨Finset.mem_univ _,
      (resultIdx2_eq_some_iff d huw hiw hsd hivd idx (ix2 e f) (ix2 i f)).mpr ⟨(Finset.mem_filter.mp he).2, rfl⟩⟩
  · intro j hj
    exact (hcol j (Finset.mem_filter.mp hj).2).symm
  · intro e _
    rfl
  · intro j hj
    exact congrArg upd (hcol j (Finset.mem_filter.mp hj).2)

end Rank2

end Cert.LibGatherScatter

end
-- ==== Proof.Finite.lean ====
import proofs.«110525_j88974542504019_1_alg».proof.Defs
import proofs.«110525_j88974542504019_1_alg».proof.Proof.Gen.Pre_finite_inputs
import proofs.«110525_j88974542504019_1_alg».proof.Proof.RefRead
import proofs.«110525_j88974542504019_1_alg».proof.Proof.LibGatherScatter
import Idealize.ShloMosaic.Lib.ReduceAll
import Idealize.ShloMosaic.Lib.ValueIdx
import Idealize.ShloMosaic.PureOps.Ideal.Laws

noncomputable section

namespace Cert.Finite

open Idealize.ShloMosaic Idealize.SL.Sem Idealize.ShloMosaic.ValueIdx
open scoped BigOperators

def AllReal {S : Shape} (v : S.Idx → EReal) : Prop := ∀ i, ∃ r : ℝ, v i = (r : EReal)

theorem ofBits_one : Ideal.ofBits .f32 0x3F800000#32 = 1 := by
  simp [Ideal.ofBits, Ideal.ieee, -EReal.coe_mul]; norm_num

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_sum {ι : Type} (s : Finset ι) (f : ι → EReal) (h : ∀ e ∈ s, ∃ r : ℝ, f e = r) :
    ∃ r : ℝ, ∑ e ∈ s, f e = r := by
  classical
  induction s using Finset.induction_on with
  | empty => exact ⟨0, by rw [Finset.sum_empty]; rfl⟩
  | insert a s ha ih =>
    rw [Finset.sum_insert ha]
    exact real_add (h a (Finset.mem_insert_self a s)) (ih (fun e he => h e (Finset.mem_insert_of_mem he)))

theorem real_max_one {x : EReal} (hx : ∃ r : ℝ, x = r) : ∃ r : ℝ, r ≠ 0 ∧ max x 1 = r := by
  obtain ⟨a, rfl⟩ := hx
  have h1 : (1 : EReal) ≤ max (a : EReal) 1 := le_max_right _ _
  rcases max_choice (a : EReal) 1 with h | h
  · rw [h] at h1 ⊢
    have ha : (1 : ℝ) ≤ a := EReal.coe_le_coe_iff.mp (by rw [EReal.coe_one]; exact h1)
    exact ⟨a, by linarith, rfl⟩
  · rw [h]
    exact ⟨1, one_ne_zero, rfl⟩

theorem real_div {x y : EReal} (hx : ∃ r : ℝ, x = r) (hy : ∃ r : ℝ, r ≠ 0 ∧ y = r) : ∃ r : ℝ, Ideal.div x y = r := by
  obtain ⟨a, rfl⟩ := hx
  obtain ⟨b, hb, rfl⟩ := hy
  exact ⟨a * (1 / b), by rw [Ideal.div_coe hb, EReal.coe_mul]⟩

open Cert.ReferenceIdeal Cert.ReferenceIdeal.Read Cert.LibGatherScatter in
theorem deg_real (ei : (⟨Cert.ReferenceIdeal.S2x800000, .i32⟩ : BufTy).Contents (Elt Ideal)) (n : Fin 50000) :
    ∃ r : ℝ, val_main_v17 (F := Ideal) ei (ix1 n) = r := by
  unfold val_main_v17
  rw [scatterAdd1_apply scatter_S50000_S800000x1_S800000_n_0_0_1 rfl rfl rfl rfl]
  refine real_add ⟨0, ?_⟩ (real_sum _ _ (fun e _ => ⟨1, ?_⟩))
  · rw [val_main_v15_apply, val_main_cst_2_apply, Ideal.ofBits_def, Ideal.ofBits_zero_f32]; rfl
  · rw [val_main_v14_apply, val_main_cst_1_apply, Ideal.ofBits_def, ofBits_one]; rfl

open Cert.ReferenceIdeal Cert.ReferenceIdeal.Read Cert.LibGatherScatter in
theorem agg_real (x : (⟨Cert.ReferenceIdeal.S50000x128, .f32⟩ : BufTy).Contents (Elt Ideal)) (ei : (⟨Cert.ReferenceIdeal.S2x800000, .i32⟩ : BufTy).Contents (Elt Ideal))
    (hx : AllReal x) (n : Fin 50000) (f : Fin 128) :
    ∃ r : ℝ, val_main_v13 (F := Ideal) x ei (ix2 n f) = r := by
  unfold val_main_v13
  rw [scatterAdd2_apply scatter_S50000x128_S800000x1_S800000x128_1_0_0_1 rfl rfl rfl rfl]
  refine real_add ⟨0, ?_⟩ (real_sum _ _ (fun e _ => ?_))
  · rw [val_main_v11_apply, val_main_cst_apply, Ideal.ofBits_def, Ideal.ofBits_zero_f32]; rfl
  · unfold val_main_v10
    rw [gather2_apply (by decide : 0 < 50000) gather_S50000x128_S800000x1_S800000x128_1_0_n_n_0_1_1128 rfl rfl rfl rfl rfl]
    exact hx _

theorem meanAgg_real (x : (⟨Cert.ReferenceIdeal.S50000x128, .f32⟩ : BufTy).Contents (Elt Ideal)) (ei : (⟨Cert.ReferenceIdeal.S2x800000, .i32⟩ : BufTy).Contents (Elt Ideal))
    (hx : AllReal x) : AllReal (Cert.ReferenceIdeal.Read.val_main_v22 (F := Ideal) x ei) := by
  intro i
  rw [Cert.ReferenceIdeal.Read.val_main_v22_apply, Ideal.hostDivf_def]
  refine real_div ?_ ?_
  · rw [eq_ix2 i]
    exact agg_real x ei hx (i 0) (i 1)
  · rw [Cert.ReferenceIdeal.Read.val_main_v21_apply, Cert.ReferenceIdeal.Read.val_main_v20_apply,
      Cert.ReferenceIdeal.Read.val_main_v19_apply, Ideal.maximumf_def,
      Cert.ReferenceIdeal.Read.val_main_v18_apply, Cert.ReferenceIdeal.Read.val_main_cst_3_apply, Ideal.ofBits_def, ofBits_one]
    refine real_max_one ?_
    rw [eq_ix1 (Cert.ReferenceIdeal.Read.idx_main_v20 (Cert.ReferenceIdeal.Read.idx_main_v21 i))]
    exact deg_real ei _

instance subsingleton_scalar_idx : Subsingleton Cert.Pre_finite_inputs.S_.Idx := ⟨fun a b => funext fun d => d.elim0⟩

theorem ofBits_inf : Ideal.ofBits .f32 0x7F800000#32 = ⊤ := by
  simp [Ideal.ofBits, Ideal.ieee]

theorem real_of_abs_lt_top (x : EReal) (h : max x (-x) < ⊤) : ∃ r : ℝ, x = r := by
  induction x using EReal.rec with
  | bot => exact absurd h (by rw [EReal.neg_bot, max_eq_right bot_le]; exact lt_irrefl _)
  | coe r => exact ⟨r, rfl⟩
  | top => exact absurd h (by rw [max_eq_left le_top]; exact lt_irrefl _)

theorem real_of_test {S : Shape} (v : FVec Ideal S .f32) (hb : Cert.Pre_finite_inputs.S_.BroadcastsInDim S (![] : Fin 0 → Fin S.rank)) (i : S.Idx)
    (h : cmpf .olt (Host.absf v) (broadcastInDim S ![] hb (constant Cert.Pre_finite_inputs.S_ .f32 0x7F800000#32)) i = 1#1) :
    ∃ r : ℝ, v i = r := by
  have h' : Ideal.cmp .olt (max (v i) (-(v i))) (Ideal.ofBits .f32 0x7F800000#32) = 1#1 := h
  rw [ofBits_inf] at h'
  refine real_of_abs_lt_top (v i) ?_
  by_contra hn
  simp [Ideal.cmp, hn] at h'

theorem args_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    AllReal (m ((c.tc : Thread Cert.KernelIdeal.nD Cert.KernelIdeal.τ).loc Cert.KernelIdeal.main_arg0))
    ∧ AllReal (m ((c.tc : Thread _ _).loc Cert.KernelIdeal.main_arg2)) ∧ AllReal (m ((c.tc : Thread _ _).loc Cert.KernelIdeal.main_arg3)) ∧ AllReal (m ((c.tc : Thread _ _).loc Cert.KernelIdeal.main_arg4)) := by
  have h := congrFun (hpre c) ix0
  dsimp only [Cert.Pre_finite_inputs.fn, Cert.Pre_finite_inputs.fn_part1] at h
  obtain ⟨h23, h27⟩ := IntOp.andi_eq_one.mp h
  obtain ⟨h18, h22⟩ := IntOp.andi_eq_one.mp h23
  obtain ⟨h13, h17⟩ := IntOp.andi_eq_one.mp h18
  obtain ⟨h8, h12⟩ := IntOp.andi_eq_one.mp h13
  obtain ⟨h3, h7⟩ := IntOp.andi_eq_one.mp h8
  refine ⟨fun i => ?_, fun i => ?_, fun i => ?_, fun i => ?_⟩
  · exact real_of_test _ _ i (Host.reduce_andi_all _ _ _ _ _ h3 i)
  · exact real_of_test _ _ i (Host.reduce_andi_all _ _ _ _ _ h7 i)
  · exact real_of_test _ _ i (Host.reduce_andi_all _ _ _ _ _ h12 i)
  · exact real_of_test _ _ i (Host.reduce_andi_all _ _ _ _ _ h17 i)

end Cert.Finite

end
-- ==== Proof.lean ====
/-
  A mean-aggregating graph convolution, batch normalisation and ReLU. Both programs form the aggregate by the same host
  operations. The kernel program computes h = agg · W_lᵀ + x · W_rᵀ + b block by block together with the column sums of
  h and h², and normalises with the variance E[h²] − E[h]²; the reference adds the bias after the first product and
  takes the variance as E[(h − E h)²]. Over the extended reals the two agree once h is real: sums may be regrouped
  freely, and for real h the two variances are one number because the divisor is the number of rows. h is real because
  the inputs are finite, a gathered row is a row of the input and the degree is clipped at one.
-/
import proofs.«110525_j88974542504019_1_alg».proof.Defs
import proofs.«110525_j88974542504019_1_alg».proof.Proof.Gen.Kernel
import proofs.«110525_j88974542504019_1_alg».proof.Proof.Gen.KernelIdeal
import proofs.«110525_j88974542504019_1_alg».proof.Proof.Gen.ReferenceIdeal
import proofs.«110525_j88974542504019_1_alg».proof.Proof.Gen.Pre_finite_inputs
import proofs.«110525_j88974542504019_1_alg».proof.Proof.KRun
import proofs.«110525_j88974542504019_1_alg».proof.Proof.KiValue
import proofs.«110525_j88974542504019_1_alg».proof.Proof.KiR0Accum
import proofs.«110525_j88974542504019_1_alg».proof.Proof.RefValue
import proofs.«110525_j88974542504019_1_alg».proof.Proof.Bridge
import proofs.«110525_j88974542504019_1_alg».proof.Proof.Finite

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Hand in
/-- Both idealized programs end with the same result: `layerK` and `layerR` of one aggregate, equal where it is real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => W4 m ρ c (Proc.devRef .tc main_v35), ?_, ?_⟩
  · refine (θ_run Cert.KernelIdeal.defs _ _).mono (fun r h c => ?_) (Cert.KernelIdeal.Hand.run_all m ρ)
    exact ⟨h c _ (mem_uc main_v35 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c)⟩
  · refine (θ_run Cert.ReferenceIdeal.defs _ _).mono (fun r h c => ⟨(h c).1.trans ?_, (h c).2⟩)
      (Cert.ReferenceIdeal.Value.run (F := Ideal) m' ρ')
    obtain ⟨hx, hwl, hbl, hwr⟩ := Cert.Finite.args_real m hpre c
    have hagg := Cert.Finite.meanAgg_real (m ((c.tc : Thread nD τ).loc main_arg0)) (m ((c.tc : Thread nD τ).loc main_arg1)) hx
    rw [Cert.ReferenceIdeal.Read.val_main_v56_eq, (hagree c).1, (hagree c).2.1, (hagree c).2.2.1, (hagree c).2.2.2.1,
      (hagree c).2.2.2.2.1, (hagree c).2.2.2.2.2.1, (hagree c).2.2.2.2.2.2]
    funext i
    obtain ⟨r, j, rfl⟩ : ∃ (r : Fin 50000) (j : Fin 128), i = ix2 r j := ⟨i 0, i 1, eq_ix2 i⟩
    refine (Cert.RefValue.result_apply _ _ _ _ _ _ _ r j).trans ?_
    refine Eq.trans ?_ (result_at m ρ c (final0_6 (V1 m ρ) c) (final0_7 (V1 m ρ) c) r j).symm
    exact (congrFun (congrFun (Cert.Spec.layerK_eq_layerR (aggIn m c) (xIn m c) (wlIn m c) (wrIn m c) (blIn m c) (gIn m c) (beIn m c)
      hagg hx hwl hwr hbl) r) j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
